-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v83 : IVec S_ 1) (main_v85 : IVec S1600000 32) : IVec S_ 1 :=
  let main_c_32 : IVec S_ 32 := constantI S_ 32 0#32
  let main_v86 : IVec S1600000 32 := broadcastInDim S1600000 ![] bcast_S_S1600000 main_c_32
  let main_v87 : IVec S1600000 1 := cmpi .sge main_v85 main_v86
  let main_c_33 : IVec S_ 1 := constantI S_ 1 1#1
  let main_v88 : IVec S_ 1 := (fun x v => Host.reduce IntOp.andi x v reducesTo_S1600000_S_d0 h_S_) main_v87 main_c_33
  let main_v89 : IVec S_ 1 := andi main_v83 main_v88
  main_v89

def fn_part4 {F : FTy → Type} [FloatOps F] (main_arg1 : IVec S2x1600000 32) (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : IVec S1x1600000 32 := (extractStridedSlice S1x1600000 ![1, 0] · slices_S2x1600000_S1x1600000_1_0) main_arg1
  let main_v85 : IVec S1600000 32 := shapeCast S1600000 main_v84 shapeCasts_S1x1600000_S1600000
  fn_part5 (F := F) main_v83 main_v85

def fn_part3 {F : FTy → Type} [FloatOps F] (main_arg1 : IVec S2x1600000 32) (main_arg13 : FVec F S64x64 .f32) (main_arg14 : FVec F S64 .f32) (main_arg15 : FVec F S64x64 .f32) (main_arg16 : FVec F S64 .f32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg16 main_arg17 main_arg18 main_v63 main_v67

def fn_part2 {F : FTy → Type} [FloatOps F] (main_arg1 : IVec S2x1600000 32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_arg17 main_arg18 main_v48 main_v49 main_v50

def fn_part1 {F : FTy → Type} [FloatOps F] (main_arg1 : IVec S2x1600000 32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x1 .f32) (main_arg18 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x1 .f32) (main_arg18 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x1 : Shape := ⟨2, ![1, 1]⟩
abbrev S512x1 : Shape := ⟨2, ![512, 1]⟩
abbrev S5000x1 : Shape := ⟨2, ![5000, 1]⟩
abbrev S512x64 : Shape := ⟨2, ![512, 64]⟩
abbrev S1x512 : Shape := ⟨2, ![1, 512]⟩
abbrev S5000x512 : Shape := ⟨2, ![5000, 512]⟩

abbrev nBuf : Space → Nat
  | .hbm => 89
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S100000x1, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x1, .f32⟩
  | .hbm, ⟨88, _⟩ => ⟨S512x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .i32⟩
  | .local _ .vmem, ⟨19, _⟩ => ⟨S5000x1, .i32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S512x1, .f32⟩
  | .local _ .vmem, ⟨29, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_20 : BitVec 32 := 0#32
  let v43 : BitVec 1 := Scalar.cmpi .ne v42 c0_i32_20
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x512_S5000x64_S512x64_0_0_1_1_n_n_wf : DotDims.WF S5000x512 S5000x64 S512x64 [0] [0] [1] [1] [] []
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x1.size a ≤ S512x1.size a
  hwx2_10 : ∀ i : grid2.Coords, EltTy.bits .f32 = 32 ∨ (Rect.block (s := S512x1) S512x1.size (cc2_transform_10 i) (hinb2_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S64x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v56) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v57) S512x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | ⟨_ + 11, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S512x64 : Shape := ⟨2, ![512, 64]⟩
abbrev S100000x1 : Shape := ⟨2, ![100000, 1]⟩
abbrev S512x1 : Shape := ⟨2, ![512, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S512x64, .f32⟩
  | .hbm, ⟨109, _⟩ => ⟨S100000x1, .i32⟩
  | .hbm, ⟨110, _⟩ => ⟨S512x64, .f32⟩
  | .hbm, ⟨111, _⟩ => ⟨S512x64, .f32⟩
  | .hbm, ⟨112, _⟩ => ⟨S1x64, .f32⟩
  | .hbm, ⟨113, _⟩ => ⟨S512x64, .f32⟩
  | .hbm, ⟨114, _⟩ => ⟨S512x64, .f32⟩
  | .hbm, ⟨115, _⟩ => ⟨S_, .f32⟩
  | .hbm, ⟨116, _⟩ => ⟨S512x64, .f32⟩
  | .hbm, ⟨117, _⟩ => ⟨S512x64, .f32⟩
  | .hbm, ⟨118, _⟩ => ⟨S512x1, .f32⟩
  | .hbm, ⟨119, _⟩ => ⟨S1x1, .f32⟩
  | .hbm, ⟨120, _⟩ => ⟨S512x1, .f32⟩
  | .hbm, ⟨121, _⟩ => ⟨S512x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_c_1 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call2_cst : Ref sig .tc := ⟨.hbm, 69, rfl⟩
abbrev main_call2_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_c_4 : Ref sig .tc := ⟨.hbm, 79, rfl⟩
abbrev main_v46 : Ref sig .tc := ⟨.hbm, 80, rfl⟩
abbrev main_v47 : Ref sig .tc := ⟨.hbm, 81, rfl⟩
abbrev main_c_5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call4_cst : Ref sig .tc := ⟨.hbm, 97, rfl⟩
abbrev main_call4_v0 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call5_cst : Ref sig .tc := ⟨.hbm, 104, rfl⟩
abbrev main_call5_v0 : Ref sig .tc := ⟨.hbm, 105, rfl⟩
abbrev main_v66 : Ref sig .tc := ⟨.hbm, 106, rfl⟩
abbrev main_cst_7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call6_cst : Ref sig .tc := ⟨.hbm, 115, rfl⟩
abbrev main_call6_v0 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.K.Region0.lean ====
import proofs.«413058_j7705171329584_2_alg».proof.Proof.Gen.Kernel.Launch
import proofs.«413058_j7705171329584_2_alg».proof.Proof.Gen.Kernel.Skeleton
import proofs.«413058_j7705171329584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rBig0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_5 (x0 : Vec F S5000x64 .f32) (x1 : Vec F S64x64 .f32) (x2 : Vec F S1x64 .f32) (x3 : Vec F S64x64 .f32) (x4 : Vec F S1x64 .f32) : Vec F S5000x64 .f32 :=
  View.canon [⟨rBig0, k0_pay1 (View.ld x0 rBig0) (View.ld x1 rW0) (View.ld x2 rB0) (View.ld x3 rW0) (View.ld x4 rB0)⟩]

theorem sound_kernel0 (c : Dev nD) (i : grid0.Coords)
    (arg1 arg6 : Memref sig .tc .vmem S5000x64 .f32) (arg2 arg4 : Memref sig .tc .vmem S64x64 .f32) (arg3 arg5 : Memref sig .tc .vmem S1x64 .f32)
    (harg1 : arg1.IsWhole) (harg2 : arg2.IsWhole) (harg3 : arg3.IsWhole) (harg4 : arg4.IsWhole) (harg5 : arg5.IsWhole) (harg6 : arg6.IsWhole)
    (x0 d : Vec F S5000x64 .f32) (x1 x3 : Vec F S64x64 .f32) (x2 x4 : Vec F S1x64 .f32) (P O : sProp 𝕄) :
    P ⊢ iprop(O -∗ owns c arg1 fullShare x0 -∗ owns c arg2 fullShare x1 -∗ owns c arg3 fullShare x2 -∗ owns c arg4 fullShare x3
      -∗ owns c arg5 fullShare x4 -∗ owns c arg6 fullShare d
      -∗ wp frame (wpE (defs₀ (F := F)) Variants.none c none) Set.univ (cc0__gin_update_kernel i arg1 harg1 arg2 harg2 arg3 harg3 arg4 harg4 arg5 harg5 arg6 harg6) fun _ =>
        iprop(P ∗ O ∗ owns c arg1 fullShare x0 ∗ owns c arg2 fullShare x1 ∗ owns c arg3 fullShare x2 ∗ owns c arg4 fullShare x3
          ∗ owns c arg5 fullShare x4 ∗ owns c arg6 fullShare (out0_5 x0 x1 x2 x3 x4))) := by
  simp only [cc0__gin_update_kernel_eq_skeleton, owns_eq_rep]; unfold cc0__gin_update_kernel_skel
  iintro HP HO H0 H1 H2 H3 H4 H5
  sl_exec
  sl_step
  iframe
  iapply rep_of_owns
  unfold owns; iexists _; isplitr
  swap; · iexact H5
  ipureintro
  simp only [View.readAt_rep]
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0 (c : Dev nD) (t : Fin cfg0.N) :
    ∀ w : Fin cfg0.W, (cfg0.win w).isOut = false → ∀ d, (dat0 V c).before w t d = (dat0 V c).after w t
  | 0, h | 1, h | 2, h | 3, h | 4, h => (dat0 V c).before_in_eq_fetched _ h (fun _ => rfl) (fun _ _ _ => rfl) (fun _ => rfl) t
  | 5, h => by cases h

theorem body_obligation0 (c : Dev nD) : BodyObligation (dat0 (F := F) V c) (defs₀ (F := F)) Variants.none () Set.univ := fun t => by
  sl_whnfR [defs₀, Defs.onTc]
  simp (disch := decide) only [bigSep_W0, before0 V c t]
  dsimp only [dat0, Dat.bound]
  iintro ⟨HΦ, Ho, ⟨%d0, H0⟩, ⟨%d1, H1⟩, ⟨%d2, H2⟩, ⟨%d3, H3⟩, ⟨%d4, H4⟩, ⟨%d5, H5⟩⟩
  iapply (sound_kernel0 c) $$ HΦ Ho H0 H1 H2 H3 H4 H5

end Cert.Kernel.Rg

end
-- ==== Proof.K.Region1.lean ====
import proofs.«413058_j7705171329584_2_alg».proof.Proof.Gen.Kernel.Launch
import proofs.«413058_j7705171329584_2_alg».proof.Proof.Gen.Kernel.Skeleton
import proofs.«413058_j7705171329584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_5 (x0 : Vec F S5000x64 .f32) (x1 : Vec F S64x64 .f32) (x2 : Vec F S1x64 .f32) (x3 : Vec F S64x64 .f32) (x4 : Vec F S1x64 .f32) : Vec F S5000x64 .f32 :=
  View.canon [⟨rBig1, k1_pay1 (View.ld x0 rBig1) (View.ld x1 rW1) (View.ld x2 rB1) (View.ld x3 rW1) (View.ld x4 rB1)⟩]

theorem sound_kernel1 (c : Dev nD) (i : grid1.Coords)
    (arg1 arg6 : Memref sig .tc .vmem S5000x64 .f32) (arg2 arg4 : Memref sig .tc .vmem S64x64 .f32) (arg3 arg5 : Memref sig .tc .vmem S1x64 .f32)
    (harg1 : arg1.IsWhole) (harg2 : arg2.IsWhole) (harg3 : arg3.IsWhole) (harg4 : arg4.IsWhole) (harg5 : arg5.IsWhole) (harg6 : arg6.IsWhole)
    (x0 d : Vec F S5000x64 .f32) (x1 x3 : Vec F S64x64 .f32) (x2 x4 : Vec F S1x64 .f32) (P O : sProp 𝕄) :
    P ⊢ iprop(O -∗ owns c arg1 fullShare x0 -∗ owns c arg2 fullShare x1 -∗ owns c arg3 fullShare x2 -∗ owns c arg4 fullShare x3
      -∗ owns c arg5 fullShare x4 -∗ owns c arg6 fullShare d
      -∗ wp frame (wpE (defs₀ (F := F)) Variants.none c none) Set.univ (cc1__gin_update_kernel i arg1 harg1 arg2 harg2 arg3 harg3 arg4 harg4 arg5 harg5 arg6 harg6) fun _ =>
        iprop(P ∗ O ∗ owns c arg1 fullShare x0 ∗ owns c arg2 fullShare x1 ∗ owns c arg3 fullShare x2 ∗ owns c arg4 fullShare x3
          ∗ owns c arg5 fullShare x4 ∗ owns c arg6 fullShare (out1_5 x0 x1 x2 x3 x4))) := by
  simp only [cc1__gin_update_kernel_eq_skeleton, owns_eq_rep]; unfold cc1__gin_update_kernel_skel
  iintro HP HO H0 H1 H2 H3 H4 H5
  sl_exec
  sl_step
  iframe
  iapply rep_of_owns
  unfold owns; iexists _; isplitr
  swap; · iexact H5
  ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    ∀ w : Fin cfg1.W, (cfg1.win w).isOut = false → ∀ d, (dat1 V c).before w t d = (dat1 V c).after w t
  | 0, h | 1, h | 2, h | 3, h | 4, h => (dat1 V c).before_in_eq_fetched _ h (fun _ => rfl) (fun _ _ _ => rfl) (fun _ => rfl) t
  | 5, h => by cases h

theorem body_obligation1 (c : Dev nD) : BodyObligation (dat1 (F := F) V c) (defs₀ (F := F)) Variants.none () Set.univ := fun t => by
  sl_whnfR [defs₀, Defs.onTc]
  simp (disch := decide) only [bigSep_W1, before1 V c t]
  dsimp only [dat1, Dat.bound]
  iintro ⟨HΦ, Ho, ⟨%d0, H0⟩, ⟨%d1, H1⟩, ⟨%d2, H2⟩, ⟨%d3, H3⟩, ⟨%d4, H4⟩, ⟨%d5, H5⟩⟩
  iapply (sound_kernel1 c) $$ HΦ Ho H0 H1 H2 H3 H4 H5

end Cert.Kernel.Rg

end
-- ==== Proof.K.Region2.Defs.lean ====
import proofs.«413058_j7705171329584_2_alg».proof.Proof.Gen.Kernel.Launch
import proofs.«413058_j7705171329584_2_alg».proof.Proof.Gen.Kernel.Skeleton
import proofs.«413058_j7705171329584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VTy (F : FTy → Type) := (c : Dev nD) → (b : Ref sig .tc) → Buf (Elt F) ((c : Thread nD τ).loc b)

variable (V : VTy F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rZ2 : Rect S5000x64 := Rect.unit (s := S5000x64) ![0, 0] S5000x64.size inb_S5000x64_S5000x64_0_0
abbrev rG2 : Rect S5000x1 := Rect.unit (s := S5000x1) ![0, 0] S5000x1.size inb_S5000x1_S5000x1_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rL2 : Rect S64x1 := Rect.unit (s := S64x1) ![0, 0] S64x1.size inb_S64x1_S64x1_0_0
abbrev rC2 : Rect S1x1 := Rect.unit (s := S1x1) ![0, 0] S1x1.size inb_S1x1_S1x1_0_0
abbrev rS2 : Rect S512x64 := Rect.unit (s := S512x64) ![0, 0] S512x64.size inb_S512x64_S512x64_0_0
abbrev rO2 : Rect S512x1 := Rect.unit (s := S512x1) ![0, 0] S512x1.size inb_S512x1_S512x1_0_0

def zero2 : Vec F S512x64 .f32 :=
  View.canon [⟨rS2, k2_pay3 (F := F)⟩]

def acc2 (a : Vec F S512x64 .f32) (x0 : Vec F S5000x64 .f32) (x1 : Vec F S5000x1 .i32) (x2 : Vec F S64x64 .f32) (x3 : Vec F S1x64 .f32)
    (x4 : Vec F S64x64 .f32) (x5 : Vec F S1x64 .f32) : Vec F S512x64 .f32 :=
  View.canon [⟨rS2, k2_pay1 (k2_pay4 (View.ld x0 rZ2) (View.ld x2 rW2) (View.ld x3 rB2) (View.ld x4 rW2) (View.ld x5 rB2) (View.ld x1 rG2)) (View.ld a rS2)⟩]

def out2_10 (a : Vec F S512x64 .f32) (x6 : Vec F S64x64 .f32) (x7 : Vec F S1x64 .f32) (x8 : Vec F S64x1 .f32) (x9 : Vec F S1x1 .f32) : Vec F S512x1 .f32 :=
  View.canon [⟨rO2, k2_pay2 (View.ld a rS2) (View.ld x6 rW2) (View.ld x7 rB2) (View.ld x8 rL2) (View.ld x9 rC2)⟩]

theorem cover2_S (p0 : Vec F S512x64 .f32) (y : S512x64.Idx) :
    ∃ pc ∈ ([⟨rS2, p0⟩] : List (View.Piece (Elt F) S512x64 .f32)), y ∈ pc.1.set :=
  View.cover_of_tiled [⟨rS2, p0⟩] S512x64.size (by rfl) y

theorem cover2_O (p0 : Vec F S512x1 .f32) (y : S512x1.Idx) :
    ∃ pc ∈ ([⟨rO2, p0⟩] : List (View.Piece (Elt F) S512x1 .f32)), y ∈ pc.1.set :=
  View.cover_of_tiled [⟨rO2, p0⟩] S512x1.size (by rfl) y

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 19 :=
  (by decide +kernel : ∀ t : Fin grid2.N, cond2_1 (grid2.coords t) ↔ t.val = 19)

theorem liveAt2 : ∀ w : Fin cfg2.W, w ≠ 10 → ∀ t : Fin cfg2.N, cfg2.idle w (grid2.coords t) = false := by decide +kernel

theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel

theorem liveAt2_10 : ∀ t : Fin cfg2.N, cond2_1 (grid2.coords t) → cfg2.idle 10 (grid2.coords t) = false := by decide +kernel

def accAt2 (c : Dev nD) : (n : ℕ) → n < cfg2.N → Vec F S512x64 .f32
  | 0, hn => acc2 zero2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => acc2 (accAt2 c n (Nat.lt_of_succ_lt hn)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)

theorem accAt2_zero (c : Dev nD) (hn : 0 < cfg2.N) :
    accAt2 V c 0 hn = acc2 zero2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) := rfl

theorem accAt2_succ (c : Dev nD) (n : ℕ) (hn : n + 1 < cfg2.N) :
    accAt2 V c (n + 1) hn = acc2 (accAt2 V c n (Nat.lt_of_succ_lt hn)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) := rfl

def outLast2 (c : Dev nD) (t : Fin cfg2.N) : Vec F S512x1 .f32 :=
  out2_10 (accAt2 V c t.val t.isLt) (iblk2 V c 6 t) (iblk2 V c 7 t) (iblk2 V c 8 t) (iblk2 V c 9 t)

abbrev scM2 : Memref sig .tc .vmem S512x64 .f32 := Memref.whole cc2_scratch0

-- the entry invariant contains the accumulator's cell at some contents: split it off at those contents, with the wand that puts it back
theorem phiA2_open (c : Dev nD) {R G : sProp 𝕄}
    (h : ∀ a, iprop((owns (c : Thread nD τ) scM2 fullShare a ∗ ((∃ d, owns (c : Thread nD τ) scM2 fullShare d) -∗ Pipeline.ΦA spec2 c)) ∗ R) ⊢ G) :
    iprop(Pipeline.ΦA spec2 c ∗ R) ⊢ G := by
  unfold Pipeline.ΦA at h ⊢; rw [scopedRest2_eq] at h ⊢; simp only [scM2, owns_whole] at h ⊢
  iintro ⟨⟨⟨H1, H2, H3, H4, H5, H6, H7, H8, H9, H10, H11, H12, H13, H14, H15, H16, ⟨%a, HS⟩⟩, Hg⟩, HR⟩
  iapply h a
  iframe
  iintro HS
  iframe

def PhiS2 (c : Dev nD) : (n : ℕ) → n ≤ cfg2.N → sProp 𝕄
  | 0, _ => Pipeline.ΦA spec2 c
  | n + 1, hn => iprop(owns (c : Thread nD τ) scM2 fullShare (accAt2 V c n hn)
      ∗ ((∃ d, owns (c : Thread nD τ) scM2 fullShare d) -∗ Pipeline.ΦA spec2 c))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => outLast2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := by
  dsimp only [dat2]
theorem owed2 (c : Dev nD) (t : Fin (cfg2.N + 1)) : (dat2 V c).owed t = 0 := by
  dsimp only [dat2]
theorem recorded2 (c : Dev nD) (t : Fin (cfg2.N + 1)) : (dat2 V c).recorded t = Set.univ := by
  dsimp only [dat2]

theorem after2_10 (c : Dev nD) (t : Fin cfg2.N) : (dat2 V c).after 10 t = outLast2 V c t := by dsimp only [dat2]

-- the body leaves every input block as it found it, so an input window's contents before a point are those after it
theorem before2 (c : Dev nD) (t : Fin cfg2.N) : ∀ (w : Fin cfg2.W) (d), w ≠ 10 → (dat2 V c).before w t d = (dat2 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ | ⟨9, _⟩, d, _ =>
    ((dat2 V c).before_in_eq_fetched _ rfl (fun _ => rfl) (fun _ _ _ => rfl)
      (fun t => by unfold Dat.blockOf; dsimp only [dat2, iblk2]; try rfl) t d).trans
      (by unfold Dat.fetched Dat.blockOf; dsimp only [dat2, iblk2]; try rfl)
  | ⟨10, _⟩, _, h => absurd rfl h

end Cert.Kernel.Rg

end
-- ==== Proof.K.Region2.RunK.lean ====
import Idealize.ShloMosaic.Lib.Pipeline.TableIdle
import proofs.«413058_j7705171329584_2_alg».proof.Proof.K.Region2.Defs

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

-- One grid point, whichever it is: the accumulator (zeroed first at the first point) takes this point's term, the result block is computed from it at the last point and is otherwise unchanged, and the ten inputs are unchanged.
theorem sound_kernel2 (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S64x1 .f32) (harg9 : arg9.IsWhole) (arg10 : Memref sig .tc .vmem S1x1 .f32) (harg10 : arg10.IsWhole)
    (arg11 : Memref sig .tc .vmem S512x1 .f32) (harg11 : arg11.IsWhole) (arg12 : Memref sig .tc .vmem S512x64 .f32) (harg12 : arg12.IsWhole)
    (x0 : Vec F S5000x64 .f32) (x1 : Vec F S5000x1 .i32) (x2 : Vec F S64x64 .f32) (x3 : Vec F S1x64 .f32) (x4 : Vec F S64x64 .f32) (x5 : Vec F S1x64 .f32)
    (x6 : Vec F S64x64 .f32) (x7 : Vec F S1x64 .f32) (x8 : Vec F S64x1 .f32) (x9 : Vec F S1x1 .f32) (d10 : Vec F S512x1 .f32) (a : Vec F S512x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ owns (c : Thread nD τ) arg11 fullShare d10 ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (if cond2_1 i then out2_10 (acc2 (if cond2_0 i then zero2 else a) x0 x1 x2 x3 x4 x5) x6 x7 x8 x9 else d10) ∗ owns (c : Thread nD τ) arg12 fullShare (acc2 (if cond2_0 i then zero2 else a) x0 x1 x2 x3 x4 x5)) -∗ K ⟨⟩))
      ⊢ wp frame (wpE (defs₀ (F := F)) Variants.none c none) E (cc2__gin_update_pool_final_kernel i arg1 harg1 arg2 harg2 arg3 harg3 arg4 harg4 arg5 harg5 arg6 harg6 arg7 harg7 arg8 harg8 arg9 harg9 arg10 harg10 arg11 harg11 arg12 harg12) K := by
  simp only [cc2__gin_update_pool_final_kernel_eq_skeleton]; unfold cc2__gin_update_pool_final_kernel_skel
  simp only [k2_part1_eq_skeleton]; unfold k2_part1_skel
  simp only [owns_eq_rep]
  iintro ⟨H0, H1, H2, H3, H4, H5, H6, H7, H8, H9, H10, H11, Hk⟩
  sl_exec
  sl_step
  iapply Hk
  iframe
  have key : arg12.view.read (Elt F) (if hc : cond2_0 i then arg12.view.writes (Elt F) (arg12.view.rep a) [⟨rS2, k2_pay3⟩] else arg12.view.rep a)
      = if cond2_0 i then zero2 else a := by
    by_cases hc0 : cond2_0 i
    · rw [dif_pos hc0, if_pos hc0]; exact View.read_writes_eq_canon _ _ _ (cover2_S _)
    · rw [dif_neg hc0, if_neg hc0, View.read_rep]
  sl_unfold_run_names
  simp only [View.readAt_eq_ld, View.read_rep, key, ← owns_eq_rep]; unfold owns
  isplitl [H10]
  · iexists _; isplitr
    swap; · iexact H10
    ipureintro
    by_cases hc1 : cond2_1 i
    · rw [dif_pos hc1, if_pos hc1, View.readCov_eq_canon_ld _ _ _ (cover2_S _)]
      exact View.read_writes_eq_canon _ _ _ (cover2_O _)
    · rw [dif_neg hc1, if_neg hc1, View.read_rep]
  iexists _; isplitr
  swap; · iexact H11
  ipureintro
  exact View.read_writes_eq_canon _ _ _ (cover2_S _)

end Cert.Kernel.Rg

end
-- ==== Proof.K.Region2.lean ====
import proofs.«413058_j7705171329584_2_alg».proof.Proof.K.Region2.RunK

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VTy F)

-- framing: a body proved against its windows and the carried contents S alone also takes the rest of the invariant, W and O, across
theorem thread2 {D0 D1 D2 D3 D4 D5 D6 D7 D8 D9 D : Type} {P0 P1 P2 P3 P4 P5 P6 P7 P8 P9 S T S' W O Q : sProp 𝕄} {P10 Q10 : D → sProp 𝕄}
    {e : Prog (TpuEff nD τ sig (Elt F) Λ₀ .tc) PUnit} (c : Dev nD)
    (h : ∀ d K, iprop(P0 ∗ P1 ∗ P2 ∗ P3 ∗ P4 ∗ P5 ∗ P6 ∗ P7 ∗ P8 ∗ P9 ∗ P10 d ∗ S ∗ (iprop(P0 ∗ P1 ∗ P2 ∗ P3 ∗ P4 ∗ P5 ∗ P6 ∗ P7 ∗ P8 ∗ P9 ∗ Q10 d ∗ T) -∗ K ⟨⟩))
      ⊢ wp frame (wpE (defs₀ (F := F)) Variants.none c none) Set.univ e K)
    (hq : ∀ d, Q10 d ⊢ Q) (hs : T ⊢ S') :
    iprop((S ∗ W) ∗ O ∗ (∃ _ : D0, P0) ∗ (∃ _ : D1, P1) ∗ (∃ _ : D2, P2) ∗ (∃ _ : D3, P3) ∗ (∃ _ : D4, P4) ∗ (∃ _ : D5, P5) ∗ (∃ _ : D6, P6) ∗ (∃ _ : D7, P7) ∗ (∃ _ : D8, P8) ∗ (∃ _ : D9, P9) ∗ ∃ d, P10 d)
      ⊢ wp frame (wpE (defs₀ (F := F)) Variants.none c none) Set.univ e fun _ => iprop((S' ∗ W) ∗ O ∗ P0 ∗ P1 ∗ P2 ∗ P3 ∗ P4 ∗ P5 ∗ P6 ∗ P7 ∗ P8 ∗ P9 ∗ Q) := by
  iintro ⟨⟨HS, Hw⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%d, H10⟩⟩
  iapply h d
  iframe
  iintro ⟨H0, H1, H2, H3, H4, H5, H6, H7, H8, H9, H10, HS⟩
  ihave H10 := hq d $$ H10
  ihave HS := hs $$ HS
  iframe

set_option maxHeartbeats 400000 in
theorem body_obligation2 (c : Dev nD) : BodyObligation (dat2 (F := F) V c) (defs₀ (F := F)) Variants.none () Set.univ := fun t => by
  rw [bigSep_W2, bigSep_W2]
  change _ ⊢ wp _ _ _ (bodyAt2 t) _
  obtain ⟨_ | n, hn⟩ := t
  · have hc0 := (hcond2_0 ⟨0, hn⟩).mpr rfl
    have hc1 : ¬cond2_1 (grid2.coords ⟨0, hn⟩) := fun h => absurd ((hcond2_1 _).mp h) (by decide : 0 ≠ 19)
    rw [idleAt2_10 _ hc1, noFlush2_10 _ hc1]
    simp (disch := decide) only [before2, liveAt2]
    exact phiA2_open c fun a => thread2 c (fun _ K => sound_kernel2 c _ _ _ _ _ _ _ _ _ _ _ _ _ _ _ _ _ _ _ _ _ _ _ _ _ _ _ _ _ _ _ _ _ _ _ _ _ a K) (fun d => by rw [if_neg hc1]; iintro H; iexists d; iexact H) (by rw [if_pos hc0]; exact .rfl)
  have hc0 : ¬cond2_0 (grid2.coords ⟨n + 1, hn⟩) := fun h => Nat.succ_ne_zero n ((hcond2_0 _).mp h)
  by_cases h1 : n + 1 = 19
  · have hc1 := (hcond2_1 ⟨n + 1, hn⟩).mpr h1
    rw [liveAt2_10 _ hc1]
    simp (disch := decide) only [before2, liveAt2, after2_10, outLast2]
    exact thread2 c (fun _ K => sound_kernel2 c _ _ _ _ _ _ _ _ _ _ _ _ _ _ _ _ _ _ _ _ _ _ _ _ _ _ _ _ _ _ _ _ _ _ _ _ _ _ K) (fun _ => by rw [if_pos hc1, if_neg hc0]; exact .rfl) (by rw [if_neg hc0]; exact .rfl)
  · have hc1 : ¬cond2_1 (grid2.coords ⟨n + 1, hn⟩) := fun h => h1 ((hcond2_1 _).mp h)
    rw [idleAt2_10 _ hc1, noFlush2_10 _ hc1]
    simp (disch := decide) only [before2, liveAt2]
    exact thread2 c (fun _ K => sound_kernel2 c _ _ _ _ _ _ _ _ _ _ _ _ _ _ _ _ _ _ _ _ _ _ _ _ _ _ _ _ _ _ _ _ _ _ _ _ _ _ K) (fun d => by rw [if_neg hc1]; iintro H; iexists d; iexact H) (by rw [if_neg hc0]; exact .rfl)

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  change iprop(_ ∗ _) ⊢ _
  iintro ⟨HS, Hw⟩
  iapply Hw
  iexists _; iexact HS

end Cert.Kernel.Rg

end
-- ==== Proof.K.Run.lean ====
import proofs.«413058_j7705171329584_2_alg».proof.Proof.K.Region0
import proofs.«413058_j7705171329584_2_alg».proof.Proof.K.Region1
import proofs.«413058_j7705171329584_2_alg».proof.Proof.K.Region2
import proofs.«413058_j7705171329584_2_alg».proof.Proof.Gen.Kernel.Regions

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- After launch 0: its arrays at what the twenty points leave, every other buffer as entered.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

theorem W1_keeps (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W3_keeps (c : Dev nD) (b : Ref sig .tc) (hb : b ∉ hostOps1_W) :
    W3 m ρ c (Proc.devRef .tc b) = W2 m ρ c (Proc.devRef .tc b) :=
  StableHlo.after_of_writes_sub hostOps1 _ hostOps1_writes hb

theorem in0_of_ne : ∀ w : Fin 6, Pipeline.arrRef spec0 w ≠ main_v21 → (cfg0.win w).isOut = false := by decide
theorem in1_of_ne : ∀ w : Fin 6, Pipeline.arrRef spec1 w ≠ main_v38 → (cfg1.win w).isOut = false := by decide

theorem W2_keeps (c : Dev nD) (b : Ref sig .tc) (hb : b ≠ main_v21) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0_of_ne w hb) _).trans (A_eq0 (V1 m ρ) c w))
  · exact W2_of_ne m ρ c b fun w e => h ⟨w, e⟩
theorem W4_keeps (c : Dev nD) (b : Ref sig .tc) (hb : b ≠ main_v38) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1_of_ne w hb) _).trans (A_eq1 (V3 m ρ) c w))
  · exact W4_of_ne m ρ c b fun w e => h ⟨w, e⟩

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

theorem W6_main_v57 (c : Dev nD) : W6 m ρ c (Proc.devRef .tc main_v57) = (dat2 (V5 m ρ) c).arrAt 10 cfg2.N :=
  W6_arr m ρ c 10

theorem W5_keeps (c : Dev nD) (b : Ref sig .tc) (hb : b ∉ hostOps2_W) :
    W5 m ρ c (Proc.devRef .tc b) = W4 m ρ c (Proc.devRef .tc b) :=
  StableHlo.after_of_writes_sub hostOps2 _ hostOps2_writes hb
theorem in2_of_ne : ∀ w : Fin 11, Pipeline.arrRef spec2 w ≠ main_v57 → (cfg2.win w).isOut = false := by decide
theorem W6_keeps (c : Dev nD) (b : Ref sig .tc) (hb : b ≠ main_v57) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in2_of_ne w hb) _).trans (A_eq2 (V5 m ρ) c w))
  · exact W6_of_ne m ρ c b fun w e => h ⟨w, e⟩

-- A buffer that no host operation writes and that is no launch's output ends as launched.
theorem W6_arg (c : Dev nD) (b : Ref sig .tc)
    (hb : b ∉ hostOps0_W ∧ b ∉ hostOps1_W ∧ b ∉ hostOps2_W ∧ b ≠ main_v21 ∧ b ≠ main_v38 ∧ b ≠ main_v57) :
    W6 m ρ c (Proc.devRef .tc b) = m ((c : Thread nD τ).loc b) :=
  (W6_keeps m ρ c b hb.2.2.2.2.2).trans <| (W5_keeps m ρ c b hb.2.2.1).trans <| (W4_keeps m ρ c b hb.2.2.2.2.1).trans <|
    (W3_keeps m ρ c b hb.2.1).trans <| (W2_keeps m ρ c b hb.2.2.2.1).trans <| (W1_keeps m ρ c b hb.1).trans rfl

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0

abbrev free (c : Dev nD) : sProp 𝕄 := iprop(∃ W, owes (c : Thread nD τ) (0 : CellTallies nD τ sig Unit) W)
abbrev R (c : Dev nD) : sProp 𝕄 := iprop((∃ r, prngReg c r) ∗ free (F := F) c)

theorem owesAt_of_free {cfg : Cfg sig Λ₀} {c : Dev nD} (dat : Dat τ (Elt F) Unit ℕ (UR sig nD τ) ℕ cfg c) (t : Fin (cfg.N + 1))
    (h0 : dat.owed t = 0) (hr : dat.recorded t = Set.univ) : free (F := F) c ⊢ dat.owesAt () t := by
  unfold Pipeline.Dat.owesAt Pipeline.owesWithin Pipeline.Dat.bound
  rw [h0, hr]
  iintro ⟨%W, HO⟩; iexists W; isplitr; · ipureintro; exact fun _ _ => Or.inl trivial
  iexact HO

theorem free_of_owesAt {cfg : Cfg sig Λ₀} {c : Dev nD} (dat : Dat τ (Elt F) Unit ℕ (UR sig nD τ) ℕ cfg c) (t : Fin (cfg.N + 1))
    (h0 : dat.owed t = 0) : dat.owesAt () t ⊢ free (F := F) c := by
  unfold Pipeline.Dat.owesAt Pipeline.owesWithin
  rw [h0]
  iintro ⟨%W, -, HO⟩; iexists W; iexact HO

theorem ΦA_of_parts {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  iframe

theorem parts_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  iframe
  iempintro

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    ihave HO := (owesAt_of_free (pdats m ρ 0 c) 0 rfl rfl) $$ HO
    imodintro
    iframe
    unfold Pipeline.prefHeld; rw [show (Finset.univ : Finset (Fin 0)) = ∅ from rfl, BI.bigSep_empty]; iempintro
  hin c := ΦA_of_parts spec0 c _
  hout c := by
    rw [Pipeline.ownSems0_none]
    exact parts_of_ΦA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N)
      (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (pdats m ρ 0 c) (Fin.last _) rfl); iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    ihave HO := (owesAt_of_free (pdats m ρ 1 c) 0 rfl rfl) $$ HO
    imodintro
    iframe
    unfold Pipeline.prefHeld; rw [show (Finset.univ : Finset (Fin 0)) = ∅ from rfl, BI.bigSep_empty]; iempintro
  hin c := ΦA_of_parts spec1 c _
  hout c := by
    rw [Pipeline.ownSems0_none]
    exact parts_of_ΦA spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N)
      (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (pdats m ρ 1 c) (Fin.last _) rfl); iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed2 (V5 m ρ) c t
  pre c := iprop(StableHlo.held (c : Thread nD τ) (Pipeline.ucRefs τ sig) (W5 m ρ c) ∗ R c)
  post c := iprop(Tₙ m ρ c ∗ free (F := F) c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q2 (V5 m ρ) c)) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    ihave HO := (owesAt_of_free (pdats m ρ 2 c) 0 (owed2 (V5 m ρ) c 0) (recorded2 (V5 m ρ) c 0)) $$ HO
    imodintro
    iframe
    unfold Pipeline.prefHeld; rw [show (Finset.univ : Finset (Fin 0)) = ∅ from rfl, BI.bigSep_empty]; iempintro
  hin c := (ΦA_of_parts spec2 c _).trans (hin2 (V5 m ρ) c)
  hout c := by
    rw [Pipeline.ownSems0_none]
    exact (hout2 (V5 m ρ) c).trans (parts_of_ΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q2 (V5 m ρ) c))
      (V5 m ρ c) (V6 m ρ c) ((pdats m ρ 2 c).arrAt · cfg2.N)
      (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (free_of_owesAt (pdats m ρ 2 c) (Fin.last _) (owed2 (V5 m ρ) c _)); iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) :=
  (main_chain c).trans (by rw [Pipeline.Seg.run_eq_chain]; rfl)

set_option backward.isDefEq.respectTransparency.types false in

-- Every weakly fair execution ends, faulting nowhere, with each unscoped buffer at the fold of the six items from the launch memory.
theorem run : θ_run defs (onTc (τ := τ) (main (F := F))) ⟨m, fun _ => 0, ρ⟩ (fun r => ∀ c : Dev nD, ∀ b ∈ Pipeline.ucRefs τ sig,
      r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

end Cert.Kernel.Rg

end
-- ==== Proof.K.Frame.lean ====
import proofs.«413058_j7705171329584_2_alg».proof.Proof.K.Run

noncomputable section

namespace Cert.Kernel.Rg

open Cert.Kernel Cert.Kernel.Gen
open Idealize.ShloMosaic Idealize.ShloMosaic.TcCoe
open Idealize.SL Idealize.SL.Sem

variable {F : FTy → Type} [FloatOps F]

-- The run ends with the result array at what the last launch leaves and every argument as launched.
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    refine ⟨h c _ (mem_uc main_v57 (by decide)), ?_⟩
    repeat' constructor
    all_goals exact (h c _ (mem_uc _ (by decide))).trans (W6_arg m ρ c _ (by decide))) (run m ρ)

end Cert.Kernel.Rg

end
-- ==== Proof.KI.Region0.lean ====
import proofs.«413058_j7705171329584_2_alg».proof.Proof.Gen.KernelIdeal.Launch
import proofs.«413058_j7705171329584_2_alg».proof.Proof.Gen.KernelIdeal.Skeleton
import proofs.«413058_j7705171329584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rBig0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_5 (x0 : Vec F S5000x64 .f32) (x1 : Vec F S64x64 .f32) (x2 : Vec F S1x64 .f32) (x3 : Vec F S64x64 .f32) (x4 : Vec F S1x64 .f32) : Vec F S5000x64 .f32 :=
  View.canon [⟨rBig0, k0_pay1 (View.ld x0 rBig0) (View.ld x1 rW0) (View.ld x2 rB0) (View.ld x3 rW0) (View.ld x4 rB0)⟩]

theorem sound_kernel0 (c : Dev nD) (i : grid0.Coords)
    (arg1 arg6 : Memref sig .tc .vmem S5000x64 .f32) (arg2 arg4 : Memref sig .tc .vmem S64x64 .f32) (arg3 arg5 : Memref sig .tc .vmem S1x64 .f32)
    (harg1 : arg1.IsWhole) (harg2 : arg2.IsWhole) (harg3 : arg3.IsWhole) (harg4 : arg4.IsWhole) (harg5 : arg5.IsWhole) (harg6 : arg6.IsWhole)
    (x0 d : Vec F S5000x64 .f32) (x1 x3 : Vec F S64x64 .f32) (x2 x4 : Vec F S1x64 .f32) (P O : sProp 𝕄) :
    P ⊢ iprop(O -∗ owns c arg1 fullShare x0 -∗ owns c arg2 fullShare x1 -∗ owns c arg3 fullShare x2 -∗ owns c arg4 fullShare x3
      -∗ owns c arg5 fullShare x4 -∗ owns c arg6 fullShare d
      -∗ wp frame (wpE (defs₀ (F := F)) Variants.none c none) Set.univ (cc0__gin_update_kernel i arg1 harg1 arg2 harg2 arg3 harg3 arg4 harg4 arg5 harg5 arg6 harg6) fun _ =>
        iprop(P ∗ O ∗ owns c arg1 fullShare x0 ∗ owns c arg2 fullShare x1 ∗ owns c arg3 fullShare x2 ∗ owns c arg4 fullShare x3
          ∗ owns c arg5 fullShare x4 ∗ owns c arg6 fullShare (out0_5 x0 x1 x2 x3 x4))) := by
  simp only [cc0__gin_update_kernel_eq_skeleton, owns_eq_rep]; unfold cc0__gin_update_kernel_skel
  iintro HP HO H0 H1 H2 H3 H4 H5
  sl_exec
  sl_step
  iframe
  iapply rep_of_owns
  unfold owns; iexists _; isplitr
  swap; · iexact H5
  ipureintro
  simp only [View.readAt_rep]
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0 (c : Dev nD) (t : Fin cfg0.N) :
    ∀ w : Fin cfg0.W, (cfg0.win w).isOut = false → ∀ d, (dat0 V c).before w t d = (dat0 V c).after w t
  | 0, h | 1, h | 2, h | 3, h | 4, h => (dat0 V c).before_in_eq_fetched _ h (fun _ => rfl) (fun _ _ _ => rfl) (fun _ => rfl) t
  | 5, h => by cases h

theorem body_obligation0 (c : Dev nD) : BodyObligation (dat0 (F := F) V c) (defs₀ (F := F)) Variants.none () Set.univ := fun t => by
  sl_whnfR [defs₀, Defs.onTc]
  simp (disch := decide) only [bigSep_W0, before0 V c t]
  dsimp only [dat0, Dat.bound]
  iintro ⟨HΦ, Ho, ⟨%d0, H0⟩, ⟨%d1, H1⟩, ⟨%d2, H2⟩, ⟨%d3, H3⟩, ⟨%d4, H4⟩, ⟨%d5, H5⟩⟩
  iapply (sound_kernel0 c) $$ HΦ Ho H0 H1 H2 H3 H4 H5

end Cert.KernelIdeal.Rg

end
-- ==== Proof.KI.Region1.lean ====
import proofs.«413058_j7705171329584_2_alg».proof.Proof.Gen.KernelIdeal.Launch
import proofs.«413058_j7705171329584_2_alg».proof.Proof.Gen.KernelIdeal.Skeleton
import proofs.«413058_j7705171329584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.TableIdle

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_5 (x0 : Vec F S5000x64 .f32) (x1 : Vec F S64x64 .f32) (x2 : Vec F S1x64 .f32) (x3 : Vec F S64x64 .f32) (x4 : Vec F S1x64 .f32) : Vec F S5000x64 .f32 :=
  View.canon [⟨rBig1, k1_pay1 (View.ld x0 rBig1) (View.ld x1 rW1) (View.ld x2 rB1) (View.ld x3 rW1) (View.ld x4 rB1)⟩]

theorem sound_kernel1 (c : Dev nD) (i : grid1.Coords)
    (arg1 arg6 : Memref sig .tc .vmem S5000x64 .f32) (arg2 arg4 : Memref sig .tc .vmem S64x64 .f32) (arg3 arg5 : Memref sig .tc .vmem S1x64 .f32)
    (harg1 : arg1.IsWhole) (harg2 : arg2.IsWhole) (harg3 : arg3.IsWhole) (harg4 : arg4.IsWhole) (harg5 : arg5.IsWhole) (harg6 : arg6.IsWhole)
    (x0 d : Vec F S5000x64 .f32) (x1 x3 : Vec F S64x64 .f32) (x2 x4 : Vec F S1x64 .f32) (P O : sProp 𝕄) :
    P ⊢ iprop(O -∗ owns c arg1 fullShare x0 -∗ owns c arg2 fullShare x1 -∗ owns c arg3 fullShare x2 -∗ owns c arg4 fullShare x3
      -∗ owns c arg5 fullShare x4 -∗ owns c arg6 fullShare d
      -∗ wp frame (wpE (defs₀ (F := F)) Variants.none c none) Set.univ (cc1__gin_update_kernel i arg1 harg1 arg2 harg2 arg3 harg3 arg4 harg4 arg5 harg5 arg6 harg6) fun _ =>
        iprop(P ∗ O ∗ owns c arg1 fullShare x0 ∗ owns c arg2 fullShare x1 ∗ owns c arg3 fullShare x2 ∗ owns c arg4 fullShare x3
          ∗ owns c arg5 fullShare x4 ∗ owns c arg6 fullShare (out1_5 x0 x1 x2 x3 x4))) := by
  simp only [cc1__gin_update_kernel_eq_skeleton, owns_eq_rep]; unfold cc1__gin_update_kernel_skel
  iintro HP HO H0 H1 H2 H3 H4 H5
  sl_exec
  sl_step
  iframe
  iapply rep_of_owns
  unfold owns; iexists _; isplitr
  swap; · iexact H5
  ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    ∀ w : Fin cfg1.W, (cfg1.win w).isOut = false → ∀ d, (dat1 V c).before w t d = (dat1 V c).after w t
  | 0, h | 1, h | 2, h | 3, h | 4, h => (dat1 V c).before_in_eq_fetched _ h (fun _ => rfl) (fun _ _ _ => rfl) (fun _ => rfl) t
  | 5, h => by cases h

theorem body_obligation1 (c : Dev nD) : BodyObligation (dat1 (F := F) V c) (defs₀ (F := F)) Variants.none () Set.univ := fun t => by
  sl_whnfR [defs₀, Defs.onTc]
  simp (disch := decide) only [bigSep_W1, before1 V c t]
  dsimp only [dat1, Dat.bound]
  iintro ⟨HΦ, Ho, ⟨%d0, H0⟩, ⟨%d1, H1⟩, ⟨%d2, H2⟩, ⟨%d3, H3⟩, ⟨%d4, H4⟩, ⟨%d5, H5⟩⟩
  iapply (sound_kernel1 c) $$ HΦ Ho H0 H1 H2 H3 H4 H5

end Cert.KernelIdeal.Rg

end
-- ==== Proof.KI.Region2.Defs.lean ====
import proofs.«413058_j7705171329584_2_alg».proof.Proof.Gen.KernelIdeal.Launch
import proofs.«413058_j7705171329584_2_alg».proof.Proof.Gen.KernelIdeal.Skeleton
import proofs.«413058_j7705171329584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VTy (F : FTy → Type) := (c : Dev nD) → (b : Ref sig .tc) → Buf (Elt F) ((c : Thread nD τ).loc b)

variable (V : VTy F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rZ2 : Rect S5000x64 := Rect.unit (s := S5000x64) ![0, 0] S5000x64.size inb_S5000x64_S5000x64_0_0
abbrev rG2 : Rect S5000x1 := Rect.unit (s := S5000x1) ![0, 0] S5000x1.size inb_S5000x1_S5000x1_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rL2 : Rect S64x1 := Rect.unit (s := S64x1) ![0, 0] S64x1.size inb_S64x1_S64x1_0_0
abbrev rC2 : Rect S1x1 := Rect.unit (s := S1x1) ![0, 0] S1x1.size inb_S1x1_S1x1_0_0
abbrev rS2 : Rect S512x64 := Rect.unit (s := S512x64) ![0, 0] S512x64.size inb_S512x64_S512x64_0_0
abbrev rO2 : Rect S512x1 := Rect.unit (s := S512x1) ![0, 0] S512x1.size inb_S512x1_S512x1_0_0

def zero2 : Vec F S512x64 .f32 :=
  View.canon [⟨rS2, k2_pay3 (F := F)⟩]

def acc2 (a : Vec F S512x64 .f32) (x0 : Vec F S5000x64 .f32) (x1 : Vec F S5000x1 .i32) (x2 : Vec F S64x64 .f32) (x3 : Vec F S1x64 .f32)
    (x4 : Vec F S64x64 .f32) (x5 : Vec F S1x64 .f32) : Vec F S512x64 .f32 :=
  View.canon [⟨rS2, k2_pay1 (k2_pay4 (View.ld x0 rZ2) (View.ld x2 rW2) (View.ld x3 rB2) (View.ld x4 rW2) (View.ld x5 rB2) (View.ld x1 rG2)) (View.ld a rS2)⟩]

def out2_10 (a : Vec F S512x64 .f32) (x6 : Vec F S64x64 .f32) (x7 : Vec F S1x64 .f32) (x8 : Vec F S64x1 .f32) (x9 : Vec F S1x1 .f32) : Vec F S512x1 .f32 :=
  View.canon [⟨rO2, k2_pay2 (View.ld a rS2) (View.ld x6 rW2) (View.ld x7 rB2) (View.ld x8 rL2) (View.ld x9 rC2)⟩]

theorem cover2_S (p0 : Vec F S512x64 .f32) (y : S512x64.Idx) :
    ∃ pc ∈ ([⟨rS2, p0⟩] : List (View.Piece (Elt F) S512x64 .f32)), y ∈ pc.1.set :=
  View.cover_of_tiled [⟨rS2, p0⟩] S512x64.size (by rfl) y

theorem cover2_O (p0 : Vec F S512x1 .f32) (y : S512x1.Idx) :
    ∃ pc ∈ ([⟨rO2, p0⟩] : List (View.Piece (Elt F) S512x1 .f32)), y ∈ pc.1.set :=
  View.cover_of_tiled [⟨rO2, p0⟩] S512x1.size (by rfl) y

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 19 :=
  (by decide +kernel : ∀ t : Fin grid2.N, cond2_1 (grid2.coords t) ↔ t.val = 19)

theorem liveAt2 : ∀ w : Fin cfg2.W, w ≠ 10 → ∀ t : Fin cfg2.N, cfg2.idle w (grid2.coords t) = false := by decide +kernel

theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel

theorem liveAt2_10 : ∀ t : Fin cfg2.N, cond2_1 (grid2.coords t) → cfg2.idle 10 (grid2.coords t) = false := by decide +kernel

def accAt2 (c : Dev nD) : (n : ℕ) → n < cfg2.N → Vec F S512x64 .f32
  | 0, hn => acc2 zero2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => acc2 (accAt2 c n (Nat.lt_of_succ_lt hn)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)

theorem accAt2_zero (c : Dev nD) (hn : 0 < cfg2.N) :
    accAt2 V c 0 hn = acc2 zero2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) := rfl

theorem accAt2_succ (c : Dev nD) (n : ℕ) (hn : n + 1 < cfg2.N) :
    accAt2 V c (n + 1) hn = acc2 (accAt2 V c n (Nat.lt_of_succ_lt hn)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) := rfl

def outLast2 (c : Dev nD) (t : Fin cfg2.N) : Vec F S512x1 .f32 :=
  out2_10 (accAt2 V c t.val t.isLt) (iblk2 V c 6 t) (iblk2 V c 7 t) (iblk2 V c 8 t) (iblk2 V c 9 t)

abbrev scM2 : Memref sig .tc .vmem S512x64 .f32 := Memref.whole cc2_scratch0

-- the entry invariant contains the accumulator's cell at some contents: split it off at those contents, with the wand that puts it back
theorem phiA2_open (c : Dev nD) {R G : sProp 𝕄}
    (h : ∀ a, iprop((owns (c : Thread nD τ) scM2 fullShare a ∗ ((∃ d, owns (c : Thread nD τ) scM2 fullShare d) -∗ Pipeline.ΦA spec2 c)) ∗ R) ⊢ G) :
    iprop(Pipeline.ΦA spec2 c ∗ R) ⊢ G := by
  unfold Pipeline.ΦA at h ⊢; rw [scopedRest2_eq] at h ⊢; simp only [scM2, owns_whole] at h ⊢
  iintro ⟨⟨⟨H1, H2, H3, H4, H5, H6, H7, H8, H9, H10, H11, H12, H13, H14, H15, H16, ⟨%a, HS⟩⟩, Hg⟩, HR⟩
  iapply h a
  iframe
  iintro HS
  iframe

def PhiS2 (c : Dev nD) : (n : ℕ) → n ≤ cfg2.N → sProp 𝕄
  | 0, _ => Pipeline.ΦA spec2 c
  | n + 1, hn => iprop(owns (c : Thread nD τ) scM2 fullShare (accAt2 V c n hn)
      ∗ ((∃ d, owns (c : Thread nD τ) scM2 fullShare d) -∗ Pipeline.ΦA spec2 c))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => outLast2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := by
  dsimp only [dat2]
theorem owed2 (c : Dev nD) (t : Fin (cfg2.N + 1)) : (dat2 V c).owed t = 0 := by
  dsimp only [dat2]
theorem recorded2 (c : Dev nD) (t : Fin (cfg2.N + 1)) : (dat2 V c).recorded t = Set.univ := by
  dsimp only [dat2]

theorem after2_10 (c : Dev nD) (t : Fin cfg2.N) : (dat2 V c).after 10 t = outLast2 V c t := by dsimp only [dat2]

-- the body leaves every input block as it found it, so an input window's contents before a point are those after it
theorem before2 (c : Dev nD) (t : Fin cfg2.N) : ∀ (w : Fin cfg2.W) (d), w ≠ 10 → (dat2 V c).before w t d = (dat2 V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ | ⟨9, _⟩, d, _ =>
    ((dat2 V c).before_in_eq_fetched _ rfl (fun _ => rfl) (fun _ _ _ => rfl)
      (fun t => by unfold Dat.blockOf; dsimp only [dat2, iblk2]; try rfl) t d).trans
      (by unfold Dat.fetched Dat.blockOf; dsimp only [dat2, iblk2]; try rfl)
  | ⟨10, _⟩, _, h => absurd rfl h

end Cert.KernelIdeal.Rg

end
-- ==== Proof.KI.Region2.RunK.lean ====
import Idealize.ShloMosaic.Lib.Pipeline.TableIdle
import proofs.«413058_j7705171329584_2_alg».proof.Proof.KI.Region2.Defs

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

-- One grid point, whichever it is: the accumulator (zeroed first at the first point) takes this point's term, the result block is computed from it at the last point and is otherwise unchanged, and the ten inputs are unchanged.
theorem sound_kernel2 (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S64x1 .f32) (harg9 : arg9.IsWhole) (arg10 : Memref sig .tc .vmem S1x1 .f32) (harg10 : arg10.IsWhole)
    (arg11 : Memref sig .tc .vmem S512x1 .f32) (harg11 : arg11.IsWhole) (arg12 : Memref sig .tc .vmem S512x64 .f32) (harg12 : arg12.IsWhole)
    (x0 : Vec F S5000x64 .f32) (x1 : Vec F S5000x1 .i32) (x2 : Vec F S64x64 .f32) (x3 : Vec F S1x64 .f32) (x4 : Vec F S64x64 .f32) (x5 : Vec F S1x64 .f32)
    (x6 : Vec F S64x64 .f32) (x7 : Vec F S1x64 .f32) (x8 : Vec F S64x1 .f32) (x9 : Vec F S1x1 .f32) (d10 : Vec F S512x1 .f32) (a : Vec F S512x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ owns (c : Thread nD τ) arg11 fullShare d10 ∗ owns (c : Thread nD τ) arg12 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (if cond2_1 i then out2_10 (acc2 (if cond2_0 i then zero2 else a) x0 x1 x2 x3 x4 x5) x6 x7 x8 x9 else d10) ∗ owns (c : Thread nD τ) arg12 fullShare (acc2 (if cond2_0 i then zero2 else a) x0 x1 x2 x3 x4 x5)) -∗ K ⟨⟩))
      ⊢ wp frame (wpE (defs₀ (F := F)) Variants.none c none) E (cc2__gin_update_pool_final_kernel i arg1 harg1 arg2 harg2 arg3 harg3 arg4 harg4 arg5 harg5 arg6 harg6 arg7 harg7 arg8 harg8 arg9 harg9 arg10 harg10 arg11 harg11 arg12 harg12) K := by
  simp only [cc2__gin_update_pool_final_kernel_eq_skeleton]; unfold cc2__gin_update_pool_final_kernel_skel
  simp only [k2_part1_eq_skeleton]; unfold k2_part1_skel
  simp only [owns_eq_rep]
  iintro ⟨H0, H1, H2, H3, H4, H5, H6, H7, H8, H9, H10, H11, Hk⟩
  sl_exec
  sl_step
  iapply Hk
  iframe
  have key : arg12.view.read (Elt F) (if hc : cond2_0 i then arg12.view.writes (Elt F) (arg12.view.rep a) [⟨rS2, k2_pay3⟩] else arg12.view.rep a)
      = if cond2_0 i then zero2 else a := by
    by_cases hc0 : cond2_0 i
    · rw [dif_pos hc0, if_pos hc0]; exact View.read_writes_eq_canon _ _ _ (cover2_S _)
    · rw [dif_neg hc0, if_neg hc0, View.read_rep]
  sl_unfold_run_names
  simp only [View.readAt_eq_ld, View.read_rep, key, ← owns_eq_rep]; unfold owns
  isplitl [H10]
  · iexists _; isplitr
    swap; · iexact H10
    ipureintro
    by_cases hc1 : cond2_1 i
    · rw [dif_pos hc1, if_pos hc1, View.readCov_eq_canon_ld _ _ _ (cover2_S _)]
      exact View.read_writes_eq_canon _ _ _ (cover2_O _)
    · rw [dif_neg hc1, if_neg hc1, View.read_rep]
  iexists _; isplitr
  swap; · iexact H11
  ipureintro
  exact View.read_writes_eq_canon _ _ _ (cover2_S _)

end Cert.KernelIdeal.Rg

end
-- ==== Proof.KI.Region2.lean ====
import proofs.«413058_j7705171329584_2_alg».proof.Proof.KI.Region2.RunK

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VTy F)

-- framing: a body proved against its windows and the carried contents S alone also takes the rest of the invariant, W and O, across
theorem thread2 {D0 D1 D2 D3 D4 D5 D6 D7 D8 D9 D : Type} {P0 P1 P2 P3 P4 P5 P6 P7 P8 P9 S T S' W O Q : sProp 𝕄} {P10 Q10 : D → sProp 𝕄}
    {e : Prog (TpuEff nD τ sig (Elt F) Λ₀ .tc) PUnit} (c : Dev nD)
    (h : ∀ d K, iprop(P0 ∗ P1 ∗ P2 ∗ P3 ∗ P4 ∗ P5 ∗ P6 ∗ P7 ∗ P8 ∗ P9 ∗ P10 d ∗ S ∗ (iprop(P0 ∗ P1 ∗ P2 ∗ P3 ∗ P4 ∗ P5 ∗ P6 ∗ P7 ∗ P8 ∗ P9 ∗ Q10 d ∗ T) -∗ K ⟨⟩))
      ⊢ wp frame (wpE (defs₀ (F := F)) Variants.none c none) Set.univ e K)
    (hq : ∀ d, Q10 d ⊢ Q) (hs : T ⊢ S') :
    iprop((S ∗ W) ∗ O ∗ (∃ _ : D0, P0) ∗ (∃ _ : D1, P1) ∗ (∃ _ : D2, P2) ∗ (∃ _ : D3, P3) ∗ (∃ _ : D4, P4) ∗ (∃ _ : D5, P5) ∗ (∃ _ : D6, P6) ∗ (∃ _ : D7, P7) ∗ (∃ _ : D8, P8) ∗ (∃ _ : D9, P9) ∗ ∃ d, P10 d)
      ⊢ wp frame (wpE (defs₀ (F := F)) Variants.none c none) Set.univ e fun _ => iprop((S' ∗ W) ∗ O ∗ P0 ∗ P1 ∗ P2 ∗ P3 ∗ P4 ∗ P5 ∗ P6 ∗ P7 ∗ P8 ∗ P9 ∗ Q) := by
  iintro ⟨⟨HS, Hw⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%d, H10⟩⟩
  iapply h d
  iframe
  iintro ⟨H0, H1, H2, H3, H4, H5, H6, H7, H8, H9, H10, HS⟩
  ihave H10 := hq d $$ H10
  ihave HS := hs $$ HS
  iframe

set_option maxHeartbeats 400000 in
theorem body_obligation2 (c : Dev nD) : BodyObligation (dat2 (F := F) V c) (defs₀ (F := F)) Variants.none () Set.univ := fun t => by
  rw [bigSep_W2, bigSep_W2]
  change _ ⊢ wp _ _ _ (bodyAt2 t) _
  obtain ⟨_ | n, hn⟩ := t
  · have hc0 := (hcond2_0 ⟨0, hn⟩).mpr rfl
    have hc1 : ¬cond2_1 (grid2.coords ⟨0, hn⟩) := fun h => absurd ((hcond2_1 _).mp h) (by decide : 0 ≠ 19)
    rw [idleAt2_10 _ hc1, noFlush2_10 _ hc1]
    simp (disch := decide) only [before2, liveAt2]
    exact phiA2_open c fun a => thread2 c (fun _ K => sound_kernel2 c _ _ _ _ _ _ _ _ _ _ _ _ _ _ _ _ _ _ _ _ _ _ _ _ _ _ _ _ _ _ _ _ _ _ _ _ _ a K) (fun d => by rw [if_neg hc1]; iintro H; iexists d; iexact H) (by rw [if_pos hc0]; exact .rfl)
  have hc0 : ¬cond2_0 (grid2.coords ⟨n + 1, hn⟩) := fun h => Nat.succ_ne_zero n ((hcond2_0 _).mp h)
  by_cases h1 : n + 1 = 19
  · have hc1 := (hcond2_1 ⟨n + 1, hn⟩).mpr h1
    rw [liveAt2_10 _ hc1]
    simp (disch := decide) only [before2, liveAt2, after2_10, outLast2]
    exact thread2 c (fun _ K => sound_kernel2 c _ _ _ _ _ _ _ _ _ _ _ _ _ _ _ _ _ _ _ _ _ _ _ _ _ _ _ _ _ _ _ _ _ _ _ _ _ _ K) (fun _ => by rw [if_pos hc1, if_neg hc0]; exact .rfl) (by rw [if_neg hc0]; exact .rfl)
  · have hc1 : ¬cond2_1 (grid2.coords ⟨n + 1, hn⟩) := fun h => h1 ((hcond2_1 _).mp h)
    rw [idleAt2_10 _ hc1, noFlush2_10 _ hc1]
    simp (disch := decide) only [before2, liveAt2]
    exact thread2 c (fun _ K => sound_kernel2 c _ _ _ _ _ _ _ _ _ _ _ _ _ _ _ _ _ _ _ _ _ _ _ _ _ _ _ _ _ _ _ _ _ _ _ _ _ _ K) (fun d => by rw [if_neg hc1]; iintro H; iexists d; iexact H) (by rw [if_neg hc0]; exact .rfl)

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  change iprop(_ ∗ _) ⊢ _
  iintro ⟨HS, Hw⟩
  iapply Hw
  iexists _; iexact HS

end Cert.KernelIdeal.Rg

end
-- ==== Proof.KI.Run.lean ====
import proofs.«413058_j7705171329584_2_alg».proof.Proof.KI.Region0
import proofs.«413058_j7705171329584_2_alg».proof.Proof.KI.Region1
import proofs.«413058_j7705171329584_2_alg».proof.Proof.KI.Region2
import proofs.«413058_j7705171329584_2_alg».proof.Proof.Gen.KernelIdeal.Regions

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- After launch 0: its arrays at what the twenty points leave, every other buffer as entered.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

theorem W1_keeps (c : Dev nD) (b : Ref sig .tc) (hb : b ∉ hostOps0_W) :
    W1 m ρ c (Proc.devRef .tc b) = W0 m ρ c (Proc.devRef .tc b) :=
  StableHlo.after_of_writes_sub hostOps0 _ hostOps0_writes hb
theorem W3_keeps (c : Dev nD) (b : Ref sig .tc) (hb : b ∉ hostOps1_W) :
    W3 m ρ c (Proc.devRef .tc b) = W2 m ρ c (Proc.devRef .tc b) :=
  StableHlo.after_of_writes_sub hostOps1 _ hostOps1_writes hb

theorem in0_of_ne : ∀ w : Fin 6, Pipeline.arrRef spec0 w ≠ main_v21 → (cfg0.win w).isOut = false := by decide
theorem in1_of_ne : ∀ w : Fin 6, Pipeline.arrRef spec1 w ≠ main_v38 → (cfg1.win w).isOut = false := by decide

theorem W2_keeps (c : Dev nD) (b : Ref sig .tc) (hb : b ≠ main_v21) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0_of_ne w hb) _).trans (A_eq0 (V1 m ρ) c w))
  · exact W2_of_ne m ρ c b fun w e => h ⟨w, e⟩
theorem W4_keeps (c : Dev nD) (b : Ref sig .tc) (hb : b ≠ main_v38) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1_of_ne w hb) _).trans (A_eq1 (V3 m ρ) c w))
  · exact W4_of_ne m ρ c b fun w e => h ⟨w, e⟩

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

theorem W6_main_v57 (c : Dev nD) : W6 m ρ c (Proc.devRef .tc main_v57) = (dat2 (V5 m ρ) c).arrAt 10 cfg2.N :=
  W6_arr m ρ c 10

theorem W5_keeps (c : Dev nD) (b : Ref sig .tc) (hb : b ∉ hostOps2_W) :
    W5 m ρ c (Proc.devRef .tc b) = W4 m ρ c (Proc.devRef .tc b) :=
  StableHlo.after_of_writes_sub hostOps2 _ hostOps2_writes hb
theorem in2_of_ne : ∀ w : Fin 11, Pipeline.arrRef spec2 w ≠ main_v57 → (cfg2.win w).isOut = false := by decide
theorem W6_keeps (c : Dev nD) (b : Ref sig .tc) (hb : b ≠ main_v57) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in2_of_ne w hb) _).trans (A_eq2 (V5 m ρ) c w))
  · exact W6_of_ne m ρ c b fun w e => h ⟨w, e⟩

-- A buffer that no host operation writes and that is no launch's output ends as launched.
theorem W6_arg (c : Dev nD) (b : Ref sig .tc)
    (hb : b ∉ hostOps0_W ∧ b ∉ hostOps1_W ∧ b ∉ hostOps2_W ∧ b ≠ main_v21 ∧ b ≠ main_v38 ∧ b ≠ main_v57) :
    W6 m ρ c (Proc.devRef .tc b) = m ((c : Thread nD τ).loc b) :=
  (W6_keeps m ρ c b hb.2.2.2.2.2).trans <| (W5_keeps m ρ c b hb.2.2.1).trans <| (W4_keeps m ρ c b hb.2.2.2.2.1).trans <|
    (W3_keeps m ρ c b hb.2.1).trans <| (W2_keeps m ρ c b hb.2.2.2.1).trans <| (W1_keeps m ρ c b hb.1).trans rfl

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0

abbrev free (c : Dev nD) : sProp 𝕄 := iprop(∃ W, owes (c : Thread nD τ) (0 : CellTallies nD τ sig Unit) W)
abbrev R (c : Dev nD) : sProp 𝕄 := iprop((∃ r, prngReg c r) ∗ free (F := F) c)

theorem owesAt_of_free {cfg : Cfg sig Λ₀} {c : Dev nD} (dat : Dat τ (Elt F) Unit ℕ (UR sig nD τ) ℕ cfg c) (t : Fin (cfg.N + 1))
    (h0 : dat.owed t = 0) (hr : dat.recorded t = Set.univ) : free (F := F) c ⊢ dat.owesAt () t := by
  unfold Pipeline.Dat.owesAt Pipeline.owesWithin Pipeline.Dat.bound
  rw [h0, hr]
  iintro ⟨%W, HO⟩; iexists W; isplitr; · ipureintro; exact fun _ _ => Or.inl trivial
  iexact HO

theorem free_of_owesAt {cfg : Cfg sig Λ₀} {c : Dev nD} (dat : Dat τ (Elt F) Unit ℕ (UR sig nD τ) ℕ cfg c) (t : Fin (cfg.N + 1))
    (h0 : dat.owed t = 0) : dat.owesAt () t ⊢ free (F := F) c := by
  unfold Pipeline.Dat.owesAt Pipeline.owesWithin
  rw [h0]
  iintro ⟨%W, -, HO⟩; iexists W; iexact HO

theorem ΦA_of_parts {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  iframe

theorem parts_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  iframe
  iempintro

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    ihave HO := (owesAt_of_free (pdats m ρ 0 c) 0 rfl rfl) $$ HO
    imodintro
    iframe
    unfold Pipeline.prefHeld; rw [show (Finset.univ : Finset (Fin 0)) = ∅ from rfl, BI.bigSep_empty]; iempintro
  hin c := ΦA_of_parts spec0 c _
  hout c := by
    rw [Pipeline.ownSems0_none]
    exact parts_of_ΦA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N)
      (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (pdats m ρ 0 c) (Fin.last _) rfl); iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    ihave HO := (owesAt_of_free (pdats m ρ 1 c) 0 rfl rfl) $$ HO
    imodintro
    iframe
    unfold Pipeline.prefHeld; rw [show (Finset.univ : Finset (Fin 0)) = ∅ from rfl, BI.bigSep_empty]; iempintro
  hin c := ΦA_of_parts spec1 c _
  hout c := by
    rw [Pipeline.ownSems0_none]
    exact parts_of_ΦA spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N)
      (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (free_of_owesAt (pdats m ρ 1 c) (Fin.last _) rfl); iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed2 (V5 m ρ) c t
  pre c := iprop(StableHlo.held (c : Thread nD τ) (Pipeline.ucRefs τ sig) (W5 m ρ c) ∗ R c)
  post c := iprop(Tₙ m ρ c ∗ free (F := F) c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full (q2 (V5 m ρ) c)) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    ihave HO := (owesAt_of_free (pdats m ρ 2 c) 0 (owed2 (V5 m ρ) c 0) (recorded2 (V5 m ρ) c 0)) $$ HO
    imodintro
    iframe
    unfold Pipeline.prefHeld; rw [show (Finset.univ : Finset (Fin 0)) = ∅ from rfl, BI.bigSep_empty]; iempintro
  hin c := (ΦA_of_parts spec2 c _).trans (hin2 (V5 m ρ) c)
  hout c := by
    rw [Pipeline.ownSems0_none]
    exact (hout2 (V5 m ρ) c).trans (parts_of_ΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full (q2 (V5 m ρ) c))
      (V5 m ρ c) (V6 m ρ c) ((pdats m ρ 2 c).arrAt · cfg2.N)
      (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (free_of_owesAt (pdats m ρ 2 c) (Fin.last _) (owed2 (V5 m ρ) c _)); iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) :=
  (main_chain c).trans (by rw [Pipeline.Seg.run_eq_chain]; rfl)

set_option backward.isDefEq.respectTransparency.types false in

-- Every weakly fair execution ends, faulting nowhere, with each unscoped buffer at the fold of the six items from the launch memory.
theorem run : θ_run defs (onTc (τ := τ) (main (F := F))) ⟨m, fun _ => 0, ρ⟩ (fun r => ∀ c : Dev nD, ∀ b ∈ Pipeline.ucRefs τ sig,
      r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

end Cert.KernelIdeal.Rg

end
-- ==== Proof.KI.Frame.lean ====
import proofs.«413058_j7705171329584_2_alg».proof.Proof.KI.Run

noncomputable section

namespace Cert.KernelIdeal.Rg

open Cert.KernelIdeal Cert.KernelIdeal.Gen
open Idealize.ShloMosaic Idealize.ShloMosaic.TcCoe
open Idealize.SL Idealize.SL.Sem

variable {F : FTy → Type} [FloatOps F]

-- The run ends with the result array at what the last launch leaves and every argument as launched.
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    refine ⟨h c _ (mem_uc main_v57 (by decide)), ?_⟩
    repeat' constructor
    all_goals exact (h c _ (mem_uc _ (by decide))).trans (W6_arg m ρ c _ (by decide))) (run m ρ)

end Cert.KernelIdeal.Rg

end
-- ==== Proof.Spec.lean ====
import Idealize.ShloMosaic.Lib.ValueIdx

noncomputable section

open scoped BigOperators

namespace Cert.Spec

open Idealize.ShloMosaic Idealize.ShloMosaic.ValueIdx

def cur2 {a b : Nat} (f : (⟨2, ![a, b]⟩ : Shape).Idx → EReal) : Fin a → Fin b → EReal := fun p q => f (ix2 p q)

def cur1 {a : Nat} (f : (⟨1, ![a]⟩ : Shape).Idx → EReal) : Fin a → EReal := fun p => f (ix1 p)

def lin {N K C : Nat} (z : Fin N → Fin K → EReal) (w : Fin K → Fin C → EReal) (b : Fin C → EReal) : Fin N → Fin C → EReal :=
  fun n c => (∑ k : Fin K, z n k * w k c) + b c

-- A dense layer followed by the rectifier.
def dense {N K C : Nat} (z : Fin N → Fin K → EReal) (w : Fin K → Fin C → EReal) (b : Fin C → EReal) : Fin N → Fin C → EReal :=
  fun n c => max (lin z w b n c) 0

-- Each node's row plus the rows named by the sources of the edges that end at it.
def agg {N E C : Nat} (h : Fin N → Fin C → EReal) (srcRow : Fin E → Fin N) (dst : Fin E → Int) : Fin N → Fin C → EReal :=
  fun n c => h n c + ∑ e : Fin E, if dst e = (n.val : Int) then h (srcRow e) c else 0

-- One round of message passing: the aggregation, then two dense layers with rectifiers.
def conv {N E C : Nat} (h : Fin N → Fin C → EReal) (srcRow : Fin E → Fin N) (dst : Fin E → Int)
    (w1 : Fin C → Fin C → EReal) (b1 : Fin C → EReal) (w2 : Fin C → Fin C → EReal) (b2 : Fin C → EReal) : Fin N → Fin C → EReal :=
  dense (dense (agg h srcRow dst) w1 b1) w2 b2

-- The sum of the rows of each graph.
def pool {N G C : Nat} (h : Fin N → Fin C → EReal) (batch : Fin N → Int) : Fin G → Fin C → EReal :=
  fun g c => ∑ n : Fin N, if batch n = (g.val : Int) then h n c else 0

-- The network: three rounds, the per-graph sums, a dense layer with the rectifier, a last linear layer.
def net (x : Fin 100000 → Fin 64 → EReal) (srcRow : Fin 1600000 → Fin 100000) (dst : Fin 1600000 → Int) (batch : Fin 100000 → Int)
    (w11 : Fin 64 → Fin 64 → EReal) (b11 : Fin 64 → EReal) (w12 : Fin 64 → Fin 64 → EReal) (b12 : Fin 64 → EReal)
    (w21 : Fin 64 → Fin 64 → EReal) (b21 : Fin 64 → EReal) (w22 : Fin 64 → Fin 64 → EReal) (b22 : Fin 64 → EReal)
    (w31 : Fin 64 → Fin 64 → EReal) (b31 : Fin 64 → EReal) (w32 : Fin 64 → Fin 64 → EReal) (b32 : Fin 64 → EReal)
    (l1w : Fin 64 → Fin 64 → EReal) (l1b : Fin 64 → EReal) (l2w : Fin 64 → Fin 1 → EReal) (l2b : Fin 1 → EReal) : Fin 512 → Fin 1 → EReal :=
  lin (dense (pool (G := 512) (conv (conv (conv x srcRow dst w11 b11 w12 b12) srcRow dst w21 b21 w22 b22) srcRow dst w31 b31 w32 b32) batch) l1w l1b) l2w l2b

-- The row a source number names: counted back from the end where negative, then clamped into the node range.
def srcRowOf (w : BitVec 32) : Fin 100000 :=
  ⟨min (if w.toInt < 0 then w + 100000#32 else w).toInt.toNat 99999, by omega⟩

end Cert.Spec

end
-- ==== Proof.LibRowTake.lean ====
import Idealize.ShloMosaic.Lib.ValueIdx

noncomputable section

open scoped BigOperators

namespace Idealize.ShloMosaic.RowTake

open Idealize.ShloMosaic Idealize.ShloMosaic.ValueIdx

section Gather
variable {α : Type}

abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable {N R C w : Nat} (wf : GatherDims.WF ⟨2, ![N, C]⟩ ⟨2, ![R, 1]⟩ ⟨2, ![R, C]⟩ [1] [0] [] [0] [] 1 ![1, C])

theorem rowGather_start_row (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  exact congrArg (fun j => min (idx j).toInt.toNat (N - 1)) (funext fun b => Fin.ext (match b with | ⟨0, _⟩ => rfl | ⟨1, _⟩ => rfl))

theorem rowGather_start_col (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

theorem rowGather_off_row (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

theorem rowGather_off_col (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    exact (congrArg₂ (· + ·) (rowGather_start_row wf idx e c) (rowGather_off_row wf e c)).trans (Nat.add_zero _)
  | ⟨1, _⟩ =>
    exact (congrArg₂ (· + ·) (rowGather_start_col wf idx e c) (rowGather_off_col wf e c)).trans (Nat.zero_add _)

end Gather

section Scatter

abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  exact congrArg (fun j => (idx j).toInt) (funext fun b => Fin.ext (match b with | ⟨0, _⟩ => rfl | ⟨1, _⟩ => rfl))

theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

theorem rowScatter_mem_sKept (a : Fin 2) : a ∈ (rowScatterDims N R C wf).sKept ↔ a ∉ ([0] : List (Fin 2)) := by
  simp [ScatterDims.sKept, Shape.kept, List.mem_filter, List.mem_finRange]

theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

theorem rowScatter_window_col (e : Fin R) (c : Fin C) : (rowScatterDims N R C wf).window (ix2 e c) 1 = c.val := by
  unfold ScatterDims.window
  rw [dif_pos ((rowScatter_mem_sKept wf 1).mpr (by decide))]
  rfl

theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  have hn := n.isLt
  have hc := c.isLt
  unfold ScatterDims.resultIdx?
  split
  · rename_i hall
    constructor
    · intro h
      have heq := Option.some.inj h
      have e0 : _ = n.val := congrArg (fun f => (f 0).val) heq
      have e1 : _ = c'.val := congrArg (fun f => (f 1).val) heq
      have p0 := (hall 0).1
      simp only [h0] at e0 p0
      simp only [h1] at e1
      exact ⟨by omega, Fin.ext (by omega)⟩
    · rintro ⟨hi, rfl⟩
      congr 1
      funext a
      refine Fin.ext ?_
      match a with
      | ⟨0, _⟩ => exact (congrArg Int.toNat (h0.trans hi)).trans (Int.toNat_natCast _)
      | ⟨1, _⟩ => exact (congrArg Int.toNat h1).trans (Int.toNat_natCast _)
  · rename_i hall
    refine ⟨fun h => absurd h (by simp), fun ⟨hi, _⟩ => absurd ?_ hall⟩
    rw [Fin.forall_fin_two, h0, h1, hN, hC, hi]
    omega

theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1

  rw [Finset.sum_filter, sum_idx2]
  refine Finset.sum_congr rfl (fun e _ => ?_)

  rw [Finset.sum_eq_single c]
  · exact if_congr ((rowScatter_lands wf idx e c n c).trans (and_iff_left rfl)) rfl rfl
  · intro b _ hb
    exact if_neg (fun h => hb ((rowScatter_lands wf idx e b n c).mp h).2)
  · intro h
    exact absurd (Finset.mem_univ c) h

end Scatter

end Idealize.ShloMosaic.RowTake

end
-- ==== Proof.KI.Host.lean ====
import proofs.«413058_j7705171329584_2_alg».proof.Proof.Gen.KernelIdeal.Launch
import proofs.«413058_j7705171329584_2_alg».proof.Proof.Gen.KernelIdeal.Regions
import proofs.«413058_j7705171329584_2_alg».proof.Proof.Spec
import proofs.«413058_j7705171329584_2_alg».proof.Proof.LibRowTake
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.Affine

noncomputable section

open scoped BigOperators

namespace Cert.KernelIdeal.HostValue

open Cert.KernelIdeal Cert.KernelIdeal.Gen
open Idealize.ShloMosaic Idealize.ShloMosaic.TcCoe Idealize.ShloMosaic.ValueIdx
open Idealize.ShloMosaic.RowTake

def dstNorm (w : BitVec 32) : BitVec 32 := if w.toInt < 0 then w + 100000#32 else w

theorem dstNorm_of_nonneg (w : BitVec 32) (h : 0 ≤ w.toInt) : dstNorm w = w := if_neg (not_lt.mpr h)

theorem srcRowOf_eq (w : BitVec 32) : Cert.Spec.srcRowOf w = ⟨min (dstNorm w).toInt.toNat (100000 - 1), by omega⟩ := rfl

abbrev normVec (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

theorem normVec_apply (v : IVec S1600000 32) (i : S1600000.Idx) : normVec v i = dstNorm (v i) := by
  show Scalar.select (IntOp.cmpi .slt (v i) (broadcastInDim _ _ _ _ i)) (IntOp.addi (v i) (broadcastInDim _ _ _ _ i)) (v i) = _
  rw [broadcastInDim_scalar_apply, broadcastInDim_scalar_apply, constantI_apply, constantI_apply]
  exact if_congr (IntOp.cmpi_slt.trans (by rw [show (0#32 : BitVec 32).toInt = 0 from by decide])) rfl rfl

abbrev colVec (v : IVec S1600000 32) : IVec S1600000x1 32 :=
  broadcastInDim S1600000x1 ![0] bcast_S1600000_S1600000x1_0 v

theorem colVec_apply (v : IVec S1600000 32) (e : Fin 1600000) : colVec v (ix2 e 0) = v (ix1 e) :=
  broadcastInDim_apply _ _ v _ (ix1 e) (fun a => by
    match a with
    | ⟨0, _⟩ => rfl)

theorem gatherDims_eq : gather_S100000x64_S1600000x1_S1600000x64_1_0_n_n_0_1_164
    = rowGatherDims 100000 1600000 64 Facts₀.gather_S100000x64_S1600000x1_S1600000x64_1_0_n_n_0_1_164_wf := rfl

theorem scatterDims_eq : scatter_S100000x64_S1600000x1_S1600000x64_1_0_0_1
    = rowScatterDims 100000 1600000 64 Facts₀.scatter_S100000x64_S1600000x1_S1600000x64_1_0_0_1_wf := rfl

-- Scatter-adding the gathered rows into the node matrix adds, at (n, c), the entries of the rows whose edges end at n.
theorem aggregate_apply (x : S100000x64.Idx → EReal) (src dst : IVec S1600000 32) {s d : Fin 1600000 → BitVec 32}
    (hs : ∀ e, src (ix1 e) = s e) (hd : ∀ e, dst (ix1 e) = d e) (n : Fin 100000) (c : Fin 64) :
    Host.scatterAdd (F := Ideal) (φ := .f32) scatter_S100000x64_S1600000x1_S1600000x64_1_0_0_1 x (colVec (normVec dst))
        (Host.gather gather_S100000x64_S1600000x1_S1600000x64_1_0_n_n_0_1_164 x (colVec (normVec src))) (ix2 n c)
      = Cert.Spec.agg (Cert.Spec.cur2 x) (fun e => Cert.Spec.srcRowOf (s e)) (fun e => (dstNorm (d e)).toInt) n c := by
  obtain rfl := funext hs
  obtain rfl := funext hd
  show Ideal.hostScatterAdd _ x _ _ (ix2 n c) = _
  rw [scatterDims_eq, rowScatterAdd_apply, gatherDims_eq]
  unfold Cert.Spec.agg Cert.Spec.cur2
  refine congrArg (x (ix2 n c) + ·) (Finset.sum_congr rfl fun e _ => ?_)
  rw [colVec_apply, normVec_apply, rowGather_apply (N := 100000) (by decide)]
  simp only [colVec_apply, normVec_apply, srcRowOf_eq]

theorem edgeRow_apply (a : IVec S2x1600000 32) (r : Fin 2) (h : S2x1600000.Slices ![r.val, 0] S1x1600000) (e : Fin 1600000) :
    shapeCast S1600000 (extractStridedSlice S1x1600000 ![r.val, 0] a h) shapeCasts_S1x1600000_S1600000 (ix1 e) = a (ix2 r e) := by
  rw [shapeCast_1a_a_apply]
  exact extractStridedSlice_apply _ a _ _ (ix2 r e) (fun b => by
    match b with
    | ⟨0, _⟩ => rfl
    | ⟨1, _⟩ => exact (Nat.zero_add _).symm)

theorem shapeCast_col_apply {α : Type} {a : ℕ} (x : (⟨1, ![a]⟩ : Shape).Idx → α) (h : (⟨1, ![a]⟩ : Shape).ShapeCasts ⟨2, ![a, 1]⟩)
    (i : Fin a) : shapeCast ⟨2, ![a, 1]⟩ x h (ix2 i 0) = x (ix1 i) :=
  shapeCast_apply x h _ _ (by
    rw [Shape.rowMajor_val_two, Shape.rowMajor_val_one]
    show i.val = i.val * 1 + 0
    rw [Nat.mul_one, Nat.add_zero])

variable (W : Valuation τ sig (Elt Ideal))

theorem v1 (e : Fin 1600000) : (StableHlo.after (hostOps0 (F := Ideal)) W (Proc.devRef .tc main_v1) : S1600000.Idx → BitVec 32) (ix1 e)
    = (W (Proc.devRef .tc main_arg1) : S2x1600000.Idx → BitVec 32) (ix2 0 e) := by
  after_results
  exact edgeRow_apply _ 0 _ e

theorem v3 (e : Fin 1600000) : (StableHlo.after (hostOps0 (F := Ideal)) W (Proc.devRef .tc main_v3) : S1600000.Idx → BitVec 32) (ix1 e)
    = (W (Proc.devRef .tc main_arg1) : S2x1600000.Idx → BitVec 32) (ix2 1 e) := by
  after_results
  exact edgeRow_apply _ 1 _ e

theorem v4 (n : Fin 100000) : (StableHlo.after (hostOps0 (F := Ideal)) W (Proc.devRef .tc main_v4) : S100000x1.Idx → BitVec 32) (ix2 n 0)
    = (W (Proc.devRef .tc main_arg2) : S100000.Idx → BitVec 32) (ix1 n) := by
  after_results
  exact shapeCast_col_apply _ _ n

set_option maxHeartbeats 1000000 in
theorem agg0 (n : Fin 100000) (c : Fin 64) :
    (StableHlo.after (hostOps0 (F := Ideal)) W (Proc.devRef .tc main_v18) : S100000x64.Idx → EReal) (ix2 n c)
      = Cert.Spec.agg (Cert.Spec.cur2 (W (Proc.devRef .tc main_arg0) : S100000x64.Idx → EReal))
          (fun e => Cert.Spec.srcRowOf ((W (Proc.devRef .tc main_arg1) : S2x1600000.Idx → BitVec 32) (ix2 0 e)))
          (fun e => (dstNorm ((W (Proc.devRef .tc main_arg1) : S2x1600000.Idx → BitVec 32) (ix2 1 e))).toInt) n c := by
  after_results_simp
  exact aggregate_apply _ _ _ (edgeRow_apply _ 0 _) (edgeRow_apply _ 1 _) n c

theorem v19 (c : Fin 64) : (StableHlo.after (hostOps0 (F := Ideal)) W (Proc.devRef .tc main_v19) : S1x64.Idx → EReal) (ix2 0 c)
    = (W (Proc.devRef .tc main_arg4) : S64.Idx → EReal) (ix1 c) := by
  after_results
  exact shapeCast_a_1a_apply _ _ 0 c

theorem v20 (c : Fin 64) : (StableHlo.after (hostOps0 (F := Ideal)) W (Proc.devRef .tc main_v20) : S1x64.Idx → EReal) (ix2 0 c)
    = (W (Proc.devRef .tc main_arg6) : S64.Idx → EReal) (ix1 c) := by
  after_results
  exact shapeCast_a_1a_apply _ _ 0 c

theorem pass0 (r : Ref sig .tc) (h : r ∉ hostOps0_W) :
    StableHlo.after (hostOps0 (F := Ideal)) W (Proc.devRef .tc r) = W (Proc.devRef .tc r) :=
  StableHlo.after_of_writes_sub hostOps0 _ hostOps0_writes h

set_option maxHeartbeats 1000000 in
theorem agg1 (n : Fin 100000) (c : Fin 64) :
    (StableHlo.after (hostOps1 (F := Ideal)) W (Proc.devRef .tc main_v35) : S100000x64.Idx → EReal) (ix2 n c)
      = Cert.Spec.agg (Cert.Spec.cur2 (W (Proc.devRef .tc main_v21) : S100000x64.Idx → EReal))
          (fun e => Cert.Spec.srcRowOf ((W (Proc.devRef .tc main_v1) : S1600000.Idx → BitVec 32) (ix1 e)))
          (fun e => (dstNorm ((W (Proc.devRef .tc main_v3) : S1600000.Idx → BitVec 32) (ix1 e))).toInt) n c := by
  after_results_simp
  exact aggregate_apply _ _ _ (fun _ => rfl) (fun _ => rfl) n c

theorem v36 (c : Fin 64) : (StableHlo.after (hostOps1 (F := Ideal)) W (Proc.devRef .tc main_v36) : S1x64.Idx → EReal) (ix2 0 c)
    = (W (Proc.devRef .tc main_arg8) : S64.Idx → EReal) (ix1 c) := by
  after_results
  exact shapeCast_a_1a_apply _ _ 0 c

theorem v37 (c : Fin 64) : (StableHlo.after (hostOps1 (F := Ideal)) W (Proc.devRef .tc main_v37) : S1x64.Idx → EReal) (ix2 0 c)
    = (W (Proc.devRef .tc main_arg10) : S64.Idx → EReal) (ix1 c) := by
  after_results
  exact shapeCast_a_1a_apply _ _ 0 c

theorem pass1 (r : Ref sig .tc) (h : r ∉ hostOps1_W) :
    StableHlo.after (hostOps1 (F := Ideal)) W (Proc.devRef .tc r) = W (Proc.devRef .tc r) :=
  StableHlo.after_of_writes_sub hostOps1 _ hostOps1_writes h

set_option maxHeartbeats 1000000 in
theorem agg2 (n : Fin 100000) (c : Fin 64) :
    (StableHlo.after (hostOps2 (F := Ideal)) W (Proc.devRef .tc main_v52) : S100000x64.Idx → EReal) (ix2 n c)
      = Cert.Spec.agg (Cert.Spec.cur2 (W (Proc.devRef .tc main_v38) : S100000x64.Idx → EReal))
          (fun e => Cert.Spec.srcRowOf ((W (Proc.devRef .tc main_v1) : S1600000.Idx → BitVec 32) (ix1 e)))
          (fun e => (dstNorm ((W (Proc.devRef .tc main_v3) : S1600000.Idx → BitVec 32) (ix1 e))).toInt) n c := by
  after_results_simp
  exact aggregate_apply _ _ _ (fun _ => rfl) (fun _ => rfl) n c

theorem v53 (c : Fin 64) : (StableHlo.after (hostOps2 (F := Ideal)) W (Proc.devRef .tc main_v53) : S1x64.Idx → EReal) (ix2 0 c)
    = (W (Proc.devRef .tc main_arg12) : S64.Idx → EReal) (ix1 c) := by
  after_results
  exact shapeCast_a_1a_apply _ _ 0 c

theorem v54 (c : Fin 64) : (StableHlo.after (hostOps2 (F := Ideal)) W (Proc.devRef .tc main_v54) : S1x64.Idx → EReal) (ix2 0 c)
    = (W (Proc.devRef .tc main_arg14) : S64.Idx → EReal) (ix1 c) := by
  after_results
  exact shapeCast_a_1a_apply _ _ 0 c

theorem v55 (c : Fin 64) : (StableHlo.after (hostOps2 (F := Ideal)) W (Proc.devRef .tc main_v55) : S1x64.Idx → EReal) (ix2 0 c)
    = (W (Proc.devRef .tc main_arg16) : S64.Idx → EReal) (ix1 c) := by
  after_results
  exact shapeCast_a_1a_apply _ _ 0 c

theorem v56 : (StableHlo.after (hostOps2 (F := Ideal)) W (Proc.devRef .tc main_v56) : S1x1.Idx → EReal) (ix2 0 0)
    = (W (Proc.devRef .tc main_arg18) : S1.Idx → EReal) (ix1 0) := by
  after_results
  exact shapeCast_a_1a_apply _ _ 0 0

end Cert.KernelIdeal.HostValue

end
-- ==== Proof.Algebra.lean ====
import Idealize.ShloMosaic.Lib.ValueIdx
import Idealize.ShloMosaic.Lib.ValueLayout
import Idealize.ShloMosaic.Lib.Affine
import Mathlib.Algebra.BigOperators.Fin
import Mathlib.Logic.Equiv.Fin.Basic
import Mathlib.Data.EReal.Basic

noncomputable section

open scoped BigOperators

namespace Cert.Alg

open Idealize.ShloMosaic Idealize.ShloMosaic.ValueIdx

theorem sum_blocks {M : Type} [AddCommMonoid M] (f : Fin 100000 → M) :
    (∑ t : Fin 20, ∑ r : Fin 5000, f ⟨5000 * t.val + r.val, by omega⟩) = ∑ n : Fin 100000, f n := by
  rw [← Fintype.sum_prod_type' (f := fun (t : Fin 20) (r : Fin 5000) => f ⟨5000 * t.val + r.val, by omega⟩)]
  refine Fintype.sum_equiv (finProdFinEquiv (m := 20) (n := 5000)) _ _ fun p => ?_
  refine congrArg f (Fin.ext ?_)
  show 5000 * p.1.val + p.2.val = p.2.val + 5000 * p.1.val
  omega

theorem indicator_mul (p : Prop) [Decidable p] (x : EReal) : (if p then (1 : EReal) else 0) * x = if p then x else 0 := by
  split
  · rw [one_mul]
  · rw [zero_mul]

theorem toInt_eq_natCast_iff (w : BitVec 32) (g : ℕ) (hg : g < 512) : w.toInt = (g : Int) ↔ w = BitVec.ofNat 32 g := by
  have hw := w.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    split <;> omega

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sitofp_eq_bit (x y : BitVec 32) (h : 1 < 32) :
    FloatOps.sitofp (F := Ideal) .f32 ((IntOp.cmpi .eq x y).setWidth 32) = if x = y then (1 : EReal) else 0 := by
  show (((((IntOp.cmpi .eq x y).setWidth 32).toInt : ℝ)) : EReal) = _
  by_cases e : x = y
  · rw [if_pos e, IntOp.cmpi_eq.2 e]
    show (((1 : ℤ) : ℝ) : EReal) = 1
    simp
  · rw [if_neg e, eq_zero_of_ne_one (fun hc => e (IntOp.cmpi_eq.1 hc))]
    show (((0 : ℤ) : ℝ) : EReal) = 0
    simp

theorem onehot_apply (col : IVec ⟨2, ![5000, 1]⟩ 32)
    (hsc : (⟨2, ![5000, 1]⟩ : Shape).ShapeCasts ⟨2, ![5000, 1]⟩)
    (hio : (⟨2, ![1, 512]⟩ : Shape).Iotas .tc 32 [1])
    (hb1 : (⟨2, ![5000, 1]⟩ : Shape).Broadcasts ⟨2, ![5000, 512]⟩)
    (hb2 : (⟨2, ![1, 512]⟩ : Shape).Broadcasts ⟨2, ![5000, 512]⟩)
    (h132 : 1 < 32) (hbf : FTy.bits .bf16 < FTy.bits .f32) (r : Fin 5000) (g : Fin 512) :
    (truncf .bf16 (sitofp .f32 (extui 32 (cmpi .eq
        (broadcastTo ⟨2, ![5000, 512]⟩ (shapeCast ⟨2, ![5000, 1]⟩ col hsc) hb1)
        (broadcastTo ⟨2, ![5000, 512]⟩ (iota .tc ⟨2, ![1, 512]⟩ 32 [1] hio) hb2)) h132) : FVec Ideal ⟨2, ![5000, 512]⟩ .f32)
      hbf : FVec Ideal ⟨2, ![5000, 512]⟩ .bf16) (ix2 r g)
      = if (col (ix2 r (0 : Fin 1))).toInt = (g.val : Int) then (1 : EReal) else 0 := by
  rw [truncf_apply, sitofp_apply, extui_apply]
  show FloatOps.sitofp (F := Ideal) .f32 ((IntOp.cmpi .eq
      (broadcastTo ⟨2, ![5000, 512]⟩ (shapeCast ⟨2, ![5000, 1]⟩ col hsc) hb1 (ix2 r g))
      (broadcastTo ⟨2, ![5000, 512]⟩ (iota .tc ⟨2, ![1, 512]⟩ 32 [1] hio) hb2 (ix2 r g))).setWidth 32) = _
  rw [broadcastTo_a1_ab_apply, broadcastTo_1b_ab_apply, shapeCast_self, iota_single_apply, sitofp_eq_bit _ _ h132]
  show (if col (ix2 r (0 : Fin 1)) = BitVec.ofNat 32 g.val then (1 : EReal) else 0) = _
  simp only [toInt_eq_natCast_iff _ g.val g.isLt]

end Cert.Alg

end
-- ==== Proof.KI.Value2.Blocks.lean ====
import proofs.«413058_j7705171329584_2_alg».proof.Proof.KI.Region2.Defs
import Idealize.ShloMosaic.Lib.Pipeline.Value
import Idealize.ShloMosaic.Lib.ValueIdx

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.ShloMosaic.Pipeline (Dat Cfg Window)

variable (V : VTy Ideal)

theorem idx2_move : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem idx2_stay : ∀ (t : Fin cfg2.N) (w : Fin cfg2.W), 2 ≤ w.val → ∀ a, (cfg2.win w).index t a = 0 :=
  (by decide +kernel : ∀ (t : Fin grid2.N) (w : Fin 11), 2 ≤ w.val → ∀ a : Fin (win2 w).shape.rank, (win2 w).index t a = 0)

theorem row_lt (t : Fin cfg2.N) (r : Fin 5000) : 5000 * t.val + r.val < 100000 := by
  have h : t.val < 20 := t.isLt
  omega

theorem iblk2_0_apply (c : Dev nD) (t : Fin cfg2.N) (r : Fin 5000) (k : Fin 64) :
    (iblk2 V c 0 t : S5000x64.Idx → EReal) (ix2 r k)
      = (V c main_v52 : S100000x64.Idx → EReal) (ix2 ⟨5000 * t.val + r.val, row_lt t r⟩ k) := by
  obtain ⟨e0, e1, -, -⟩ := idx2_move t
  show V c main_v52 (((cfg2.win 0).blk t).view.emb (ix2 r k)) = V c main_v52 _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 64 + 1 * k.val = k.val; omega

theorem iblk2_1_apply (c : Dev nD) (t : Fin cfg2.N) (r : Fin 5000) :
    (iblk2 V c 1 t : S5000x1.Idx → BitVec 32) (ix2 r (0 : Fin 1))
      = (V c main_v4 : S100000x1.Idx → BitVec 32) (ix2 ⟨5000 * t.val + r.val, row_lt t r⟩ (0 : Fin 1)) := by
  obtain ⟨-, -, e0, e1⟩ := idx2_move t
  show V c main_v4 (((cfg2.win 1).blk t).view.emb (ix2 r (0 : Fin 1))) = V c main_v4 _
  refine congrArg _ (funext fun a => Fin.ext ?_)
  match a with
  | ⟨0, _⟩ => show win2_1.index t (0 : Fin 2) * 5000 + 1 * r.val = 5000 * t.val + r.val; omega
  | ⟨1, _⟩ => show win2_1.index t (1 : Fin 2) * 1 + 1 * 0 = 0; omega

theorem iblk2_2_eq (c : Dev nD) (t : Fin cfg2.N) : (iblk2 V c 2 t : S64x64.Idx → EReal) = V c main_arg11 :=
  funext fun j => congrArg (V c main_arg11 : S64x64.Idx → EReal)
    (funext fun a => Fin.ext ((cfg2.win 2).rect_emb_val_of_index_zero t a (idx2_stay t 2 (by decide) a) j))

theorem iblk2_3_eq (c : Dev nD) (t : Fin cfg2.N) : (iblk2 V c 3 t : S1x64.Idx → EReal) = V c main_v53 :=
  funext fun j => congrArg (V c main_v53 : S1x64.Idx → EReal)
    (funext fun a => Fin.ext ((cfg2.win 3).rect_emb_val_of_index_zero t a (idx2_stay t 3 (by decide) a) j))

theorem iblk2_4_eq (c : Dev nD) (t : Fin cfg2.N) : (iblk2 V c 4 t : S64x64.Idx → EReal) = V c main_arg13 :=
  funext fun j => congrArg (V c main_arg13 : S64x64.Idx → EReal)
    (funext fun a => Fin.ext ((cfg2.win 4).rect_emb_val_of_index_zero t a (idx2_stay t 4 (by decide) a) j))

theorem iblk2_5_eq (c : Dev nD) (t : Fin cfg2.N) : (iblk2 V c 5 t : S1x64.Idx → EReal) = V c main_v54 :=
  funext fun j => congrArg (V c main_v54 : S1x64.Idx → EReal)
    (funext fun a => Fin.ext ((cfg2.win 5).rect_emb_val_of_index_zero t a (idx2_stay t 5 (by decide) a) j))

theorem iblk2_6_eq (c : Dev nD) (t : Fin cfg2.N) : (iblk2 V c 6 t : S64x64.Idx → EReal) = V c main_arg15 :=
  funext fun j => congrArg (V c main_arg15 : S64x64.Idx → EReal)
    (funext fun a => Fin.ext ((cfg2.win 6).rect_emb_val_of_index_zero t a (idx2_stay t 6 (by decide) a) j))

theorem iblk2_7_eq (c : Dev nD) (t : Fin cfg2.N) : (iblk2 V c 7 t : S1x64.Idx → EReal) = V c main_v55 :=
  funext fun j => congrArg (V c main_v55 : S1x64.Idx → EReal)
    (funext fun a => Fin.ext ((cfg2.win 7).rect_emb_val_of_index_zero t a (idx2_stay t 7 (by decide) a) j))

theorem iblk2_8_eq (c : Dev nD) (t : Fin cfg2.N) : (iblk2 V c 8 t : S64x1.Idx → EReal) = V c main_arg17 :=
  funext fun j => congrArg (V c main_arg17 : S64x1.Idx → EReal)
    (funext fun a => Fin.ext ((cfg2.win 8).rect_emb_val_of_index_zero t a (idx2_stay t 8 (by decide) a) j))

theorem iblk2_9_eq (c : Dev nD) (t : Fin cfg2.N) : (iblk2 V c 9 t : S1x1.Idx → EReal) = V c main_v56 :=
  funext fun j => congrArg (V c main_v56 : S1x1.Idx → EReal)
    (funext fun a => Fin.ext ((cfg2.win 9).rect_emb_val_of_index_zero t a (idx2_stay t 9 (by decide) a) j))

end Cert.KernelIdeal.Val

end
-- ==== Proof.KI.Value2.Products.lean ====
import proofs.«413058_j7705171329584_2_alg».proof.Proof.Spec
import Idealize.ShloMosaic.Lib.ValueLayout
import Idealize.ShloMosaic.Lib.StackMember

noncomputable section

open scoped BigOperators

namespace Cert.KernelIdeal.Val

open Idealize.ShloMosaic Idealize.ShloMosaic.ValueIdx

abbrev rowsCols (N K C : Nat) (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

section
variable {N K C : Nat} (wf : DotDims.WF ⟨2, ![N, K]⟩ ⟨2, ![K, C]⟩ ⟨2, ![N, C]⟩ [1] [0] [0] [1] [] [])

-- these dimension numbers are the plain product's: an entry is a sum over the inner axis
theorem rowsCols_apply {φ₁ φ₂ : FTy} (z : FVec Ideal ⟨2, ![N, K]⟩ φ₁) (w : FVec Ideal ⟨2, ![K, C]⟩ φ₂) (n : Fin N) (c : Fin C) :
    matmul (rowsCols N K C wf) none z w (constant (F := Ideal) ⟨2, ![N, C]⟩ .f32 0x00000000#32) (ix2 n c)
      = ∑ k : Fin K, z (ix2 n k) * w (ix2 k c) :=
  (congrFun (matmul_zero_eq_dotGeneral _ none z w) _).trans (StackMember.dotGeneral_plain_apply none z w n c)

theorem affine_apply (hb : (⟨2, ![1, C]⟩ : Shape).Broadcasts ⟨2, ![N, C]⟩) (hsc : (⟨2, ![1, C]⟩ : Shape).ShapeCasts ⟨2, ![1, C]⟩)
    (hbf : FTy.bits .bf16 < FTy.bits .f32)
    (z : FVec Ideal ⟨2, ![N, K]⟩ .f32) (w : FVec Ideal ⟨2, ![K, C]⟩ .f32) (b : FVec Ideal ⟨2, ![1, C]⟩ .f32) (n : Fin N) (c : Fin C) :
    addf (matmul (rowsCols N K C wf) none (truncf .bf16 z hbf) (truncf .bf16 w hbf) (constant (F := Ideal) ⟨2, ![N, C]⟩ .f32 0x00000000#32))
        (broadcastTo ⟨2, ![N, C]⟩ (shapeCast ⟨2, ![1, C]⟩ b hsc) hb) (ix2 n c)
      = Spec.lin (Spec.cur2 z) (Spec.cur2 w) (fun q => b (ix2 0 q)) n c := by
  rw [addf_apply, rowsCols_apply, broadcastTo_1b_ab_apply, shapeCast_self]
  rfl

theorem layer_apply (hb : (⟨2, ![1, C]⟩ : Shape).Broadcasts ⟨2, ![N, C]⟩) (hsc : (⟨2, ![1, C]⟩ : Shape).ShapeCasts ⟨2, ![1, C]⟩)
    (hbf : FTy.bits .bf16 < FTy.bits .f32)
    (z : FVec Ideal ⟨2, ![N, K]⟩ .f32) (w : FVec Ideal ⟨2, ![K, C]⟩ .f32) (b : FVec Ideal ⟨2, ![1, C]⟩ .f32) (n : Fin N) (c : Fin C) :
    maximumf (addf (matmul (rowsCols N K C wf) none (truncf .bf16 z hbf) (truncf .bf16 w hbf) (constant (F := Ideal) ⟨2, ![N, C]⟩ .f32 0x00000000#32))
        (broadcastTo ⟨2, ![N, C]⟩ (shapeCast ⟨2, ![1, C]⟩ b hsc) hb))
        (broadcast ⟨2, ![N, C]⟩ (Scalar.ofBits (F := Ideal) .f32 0x00000000#32)) (ix2 n c)
      = Spec.dense (Spec.cur2 z) (Spec.cur2 w) (fun q => b (ix2 0 q)) n c := by
  rw [maximumf_apply, affine_apply, broadcast_apply]
  show max _ (Ideal.ofBits .f32 0x00000000#32) = max _ 0
  rw [Ideal.ofBits_zero_f32]

end

abbrev overRows (R G C : Nat) (wf : DotDims.WF ⟨2, ![R, G]⟩ ⟨2, ![R, C]⟩ ⟨2, ![G, C]⟩ [0] [0] [1] [1] [] []) :
    DotDims ⟨2, ![R, G]⟩ ⟨2, ![R, C]⟩ ⟨2, ![G, C]⟩ where
  lhsContracting := [0]
  rhsContracting := [0]
  lhsNonContracting := [1]
  rhsNonContracting := [1]
  lhsBatch := []
  rhsBatch := []
  wf := wf

section
variable {R G C : Nat} (wf : DotDims.WF ⟨2, ![R, G]⟩ ⟨2, ![R, C]⟩ ⟨2, ![G, C]⟩ [0] [0] [1] [1] [] [])

theorem overRows_lhs_1 (j : (⟨2, ![G, C]⟩ : Shape).Idx) (q : (overRows R G C wf).contr.Idx) :
    ((overRows R G C wf).lhsIdx j q 1).val = (j 0).val := by
  unfold DotDims.lhsIdx
  rw [dif_neg (show ¬(1 : Fin 2) ∈ ([] : List (Fin 2)) from List.not_mem_nil),
    dif_pos (show (1 : Fin 2) ∈ ([1] : List (Fin 2)) from List.mem_singleton.mpr rfl)]
  rfl

theorem overRows_rhs_1 (j : (⟨2, ![G, C]⟩ : Shape).Idx) (q : (overRows R G C wf).contr.Idx) :
    ((overRows R G C wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

theorem overRows_apply {φ₁ φ₂ : FTy} (a : FVec Ideal ⟨2, ![R, G]⟩ φ₁) (b : FVec Ideal ⟨2, ![R, C]⟩ φ₂) (g : Fin G) (c : Fin C) :
    matmul (overRows R G C wf) none a b (constant (F := Ideal) ⟨2, ![G, C]⟩ .f32 0x00000000#32) (ix2 g c)
      = ∑ r : Fin R, a (ix2 r g) * b (ix2 r c) := by
  show FloatOps.matmul (overRows R G C wf) none a b (constant (F := Ideal) ⟨2, ![G, C]⟩ .f32 0x00000000#32) (ix2 g c) = _
  rw [Ideal.matmul_constant_zero_apply, ← Equiv.sum_comp (contrEquiv1 (overRows R G C wf) R rfl rfl).symm]
  refine Finset.sum_congr rfl fun r _ => ?_
  have hr := contrEquiv1_symm_val (overRows R G C wf) R rfl rfl r
  have el : (overRows R G C wf).lhsIdx (ix2 g c) ((contrEquiv1 (overRows R G C wf) R rfl rfl).symm r) = ix2 r g :=
    funext fun x => Fin.ext (by
      match x with
      | ⟨0, _⟩ => exact ((overRows R G C wf).lhsIdx_val_of_single rfl _ _).trans hr
      | ⟨1, _⟩ => exact overRows_lhs_1 wf _ _)
  have er : (overRows R G C wf).rhsIdx (ix2 g c) ((contrEquiv1 (overRows R G C wf) R rfl rfl).symm r) = ix2 r c :=
    funext fun x => Fin.ext (by
      match x with
      | ⟨0, _⟩ => exact ((overRows R G C wf).rhsIdx_val_of_single rfl _ _).trans hr
      | ⟨1, _⟩ => exact overRows_rhs_1 wf _ _)
  rw [el, er]

end

-- a row of the two-layer map depends on the same row of its input only
theorem dense2_row {N M K C D : Nat} (z : Fin N → Fin K → EReal) (z' : Fin M → Fin K → EReal) (w1 : Fin K → Fin C → EReal) (b1 : Fin C → EReal)
    (w2 : Fin C → Fin D → EReal) (b2 : Fin D → EReal) (p : Fin N) (n : Fin M) (q : Fin D) (h : ∀ j, z p j = z' n j) :
    Spec.dense (Spec.dense z w1 b1) w2 b2 p q = Spec.dense (Spec.dense z' w1 b1) w2 b2 n q := by
  simp only [Spec.dense, Spec.lin, h]

theorem zero_offsets : (![0, 0] : Fin 2 → Nat) = fun _ => 0 := funext fun a => by fin_cases a <;> rfl

end Cert.KernelIdeal.Val

end
-- ==== Proof.KI.Value2.Payload.lean ====
import proofs.«413058_j7705171329584_2_alg».proof.Proof.Gen.KernelIdeal.Skeleton
import proofs.«413058_j7705171329584_2_alg».proof.Proof.Spec
import proofs.«413058_j7705171329584_2_alg».proof.Proof.Algebra
import proofs.«413058_j7705171329584_2_alg».proof.Proof.KI.Value2.Products
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

theorem k2_pay4_apply (z : Vec Ideal S5000x64 .f32) (w1 : Vec Ideal S64x64 .f32) (b1 : Vec Ideal S1x64 .f32)
    (w2 : Vec Ideal S64x64 .f32) (b2 : Vec Ideal S1x64 .f32) (col : Vec Ideal S5000x1 .i32) (g : Fin 512) (k : Fin 64) :
    k2_pay4 (F := Ideal) z w1 b1 w2 b2 col (ix2 g k)
      = ∑ r : Fin 5000, if (col (ix2 r (0 : Fin 1))).toInt = (g.val : Int)
          then Spec.dense (Spec.dense (Spec.cur2 z) (Spec.cur2 w1) (fun q => b1 (ix2 0 q))) (Spec.cur2 w2) (fun q => b2 (ix2 0 q)) r k
          else 0 := by
  unfold k2_pay4
  dsimp only
  rw [shapeCast_self z]
  rw [show dot_S5000x512_S5000x64_S512x64_0_0_1_1_n_n = overRows 5000 512 64 Facts₀.dot_S5000x512_S5000x64_S512x64_0_0_1_1_n_n_wf from rfl,
    overRows_apply]
  refine Finset.sum_congr rfl fun r _ => ?_
  rw [Alg.onehot_apply, Alg.indicator_mul, truncf_apply]
  rw [show dot_S5000x64_S64x64_S5000x64_1_0_0_1_n_n = rowsCols 5000 64 64 Facts₀.dot_S5000x64_S64x64_S5000x64_1_0_0_1_n_n_wf from rfl]
  rw [layer_apply]
  refine congrArg (fun zz => if (col (ix2 r (0 : Fin 1))).toInt = (g.val : Int)
    then Spec.dense zz (Spec.cur2 w2) (fun q => b2 (ix2 0 q)) r k else 0) (funext fun n => funext fun c => ?_)
  exact layer_apply _ _ _ _ _ _ _ n c

end Cert.KernelIdeal.Val

end
-- ==== Proof.KI.Value2.Point.lean ====
import proofs.«413058_j7705171329584_2_alg».proof.Proof.KI.Region2.Defs
import proofs.«413058_j7705171329584_2_alg».proof.Proof.Spec
import proofs.«413058_j7705171329584_2_alg».proof.Proof.Algebra
import proofs.«413058_j7705171329584_2_alg».proof.Proof.KI.Value2.Payload
import proofs.«413058_j7705171329584_2_alg».proof.Proof.KI.Value2.Blocks
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx

theorem share_of_rows (z : Vec Ideal S5000x64 .f32) (w1 : Vec Ideal S64x64 .f32) (b1 : Vec Ideal S1x64 .f32)
    (w2 : Vec Ideal S64x64 .f32) (b2 : Vec Ideal S1x64 .f32) (col : Vec Ideal S5000x1 .i32)
    (Z : S100000x64.Idx → EReal) (B : S100000x1.Idx → BitVec 32) (o : ℕ) (ho : ∀ r : Fin 5000, o + r.val < 100000)
    (hz : ∀ (r : Fin 5000) (q : Fin 64), z (ix2 r q) = Z (ix2 ⟨o + r.val, ho r⟩ q))
    (hc : ∀ r : Fin 5000, col (ix2 r (0 : Fin 1)) = B (ix2 ⟨o + r.val, ho r⟩ (0 : Fin 1))) (g : Fin 512) (k : Fin 64) :
    k2_pay4 (F := Ideal) z w1 b1 w2 b2 col (ix2 g k)
      = ∑ r : Fin 5000, if (B (ix2 ⟨o + r.val, ho r⟩ (0 : Fin 1))).toInt = (g.val : Int)
          then Spec.dense (Spec.dense (Spec.cur2 Z) (Spec.cur2 w1) (fun q => b1 (ix2 0 q))) (Spec.cur2 w2) (fun q => b2 (ix2 0 q))
            ⟨o + r.val, ho r⟩ k
          else 0 := by
  rw [k2_pay4_apply]
  refine Finset.sum_congr rfl fun r _ => ?_
  rw [hc r]
  refine if_congr Iff.rfl ?_ rfl
  exact dense2_row _ _ _ _ _ _ r ⟨o + r.val, ho r⟩ k (fun q => hz r q)

variable (V : VTy Ideal)

abbrev upd (c : Dev nD) : Fin 100000 → Fin 64 → EReal :=
  Spec.dense (Spec.dense (Spec.cur2 (V c main_v52)) (Spec.cur2 (V c main_arg11)) (fun q => (V c main_v53 : S1x64.Idx → EReal) (ix2 0 q)))
    (Spec.cur2 (V c main_arg13)) (fun q => (V c main_v54 : S1x64.Idx → EReal) (ix2 0 q))

abbrev gnum (c : Dev nD) : Fin 100000 → Int := fun n => ((V c main_v4 : S100000x1.Idx → BitVec 32) (ix2 n 0)).toInt

theorem share_apply (c : Dev nD) (t : Fin cfg2.N) (g : Fin 512) (k : Fin 64) :
    k2_pay4 (F := Ideal) (iblk2 V c 0 t) (iblk2 V c 2 t) (iblk2 V c 3 t) (iblk2 V c 4 t) (iblk2 V c 5 t) (iblk2 V c 1 t) (ix2 g k)
      = ∑ r : Fin 5000, if gnum V c ⟨5000 * t.val + r.val, row_lt t r⟩ = (g.val : Int)
          then upd V c ⟨5000 * t.val + r.val, row_lt t r⟩ k else 0 := by
  refine (share_of_rows _ _ _ _ _ _ (V c main_v52) (V c main_v4) (5000 * t.val) (row_lt t)
    (fun r q => iblk2_0_apply V c t r q) (fun r => iblk2_1_apply V c t r) g k).trans ?_
  rw [iblk2_2_eq V c t, iblk2_3_eq V c t, iblk2_4_eq V c t, iblk2_5_eq V c t]

theorem shares_eq_pool (c : Dev nD) (g : Fin 512) (k : Fin 64) (hlt : ∀ (t : Fin 20) (r : Fin 5000), 5000 * t.val + r.val < 100000) :
    (∑ t : Fin 20, ∑ r : Fin 5000, if gnum V c ⟨5000 * t.val + r.val, hlt t r⟩ = (g.val : Int)
        then upd V c ⟨5000 * t.val + r.val, hlt t r⟩ k else 0)
      = Spec.pool (G := 512) (upd V c) (gnum V c) g k := by
  unfold Spec.pool
  exact Alg.sum_blocks (fun n => if gnum V c n = (g.val : Int) then upd V c n k else 0)

end Cert.KernelIdeal.Val

end
-- ==== Proof.KI.Value2.Acc.lean ====
import proofs.«413058_j7705171329584_2_alg».proof.Proof.KI.Region2.Defs
import proofs.«413058_j7705171329584_2_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Rg
open Idealize.ShloMosaic Idealize.ShloMosaic.TcCoe Idealize.ShloMosaic.ValueIdx
open Idealize.SL.Sem
open scoped BigOperators

theorem acc2_hz : (![0, 0] : Fin 2 → Nat) = fun _ => 0 := funext fun a => by fin_cases a <;> rfl

theorem zero2_apply (j : S512x64.Idx) : (zero2 (F := Idealize.ShloMosaic.Ideal) : S512x64.Idx → EReal) j = 0 := by
  unfold zero2
  rw [View.canon_unit_zero acc2_hz]
  unfold k2_pay3
  simp only [shapeCast_self, broadcast_apply]
  exact Ideal.ofBits_zero_f32

theorem acc2_apply (a : Vec Idealize.ShloMosaic.Ideal S512x64 .f32) (x0 : Vec Idealize.ShloMosaic.Ideal S5000x64 .f32)
    (x1 : Vec Idealize.ShloMosaic.Ideal S5000x1 .i32) (x2 : Vec Idealize.ShloMosaic.Ideal S64x64 .f32)
    (x3 : Vec Idealize.ShloMosaic.Ideal S1x64 .f32) (x4 : Vec Idealize.ShloMosaic.Ideal S64x64 .f32)
    (x5 : Vec Idealize.ShloMosaic.Ideal S1x64 .f32) (j : S512x64.Idx) :
    (acc2 a x0 x1 x2 x3 x4 x5 : S512x64.Idx → EReal) j
      = (a : S512x64.Idx → EReal) j + (k2_pay4 x0 x2 x3 x4 x5 x1 : S512x64.Idx → EReal) j := by
  unfold acc2
  rw [View.canon_unit_zero acc2_hz]
  simp only [View.ld_unit_zero (S := S5000x64) acc2_hz, View.ld_unit_zero (S := S5000x1) acc2_hz,
    View.ld_unit_zero (S := S64x64) acc2_hz, View.ld_unit_zero (S := S1x64) acc2_hz, View.ld_unit_zero (S := S512x64) acc2_hz]
  unfold k2_pay1
  simp only [shapeCast_self, addf_apply]

variable (V : VTy Idealize.ShloMosaic.Ideal)

def contrib2 (c : Dev nD) (t : Fin cfg2.N) (g : Fin 512) (k : Fin 64) : EReal :=
  k2_pay4 (F := Idealize.ShloMosaic.Ideal) (iblk2 V c 0 t) (iblk2 V c 2 t) (iblk2 V c 3 t) (iblk2 V c 4 t) (iblk2 V c 5 t) (iblk2 V c 1 t) (ix2 g k)

def contribN2 (c : Dev nD) (g : Fin 512) (k : Fin 64) (n : ℕ) : EReal :=
  if h : n < cfg2.N then contrib2 V c ⟨n, h⟩ g k else 0

theorem contribN2_of_lt (c : Dev nD) (g : Fin 512) (k : Fin 64) (n : ℕ) (h : n < cfg2.N) :
    contribN2 V c g k n = contrib2 V c ⟨n, h⟩ g k :=
  dif_pos h

theorem accAt2_eq_sum (c : Dev nD) (g : Fin 512) (k : Fin 64) : ∀ (n : ℕ) (hn : n < cfg2.N),
    (accAt2 V c n hn : S512x64.Idx → EReal) (ix2 g k) = ∑ t ∈ Finset.range (n + 1), contribN2 V c g k t
  | 0, hn => by
    rw [accAt2_zero, acc2_apply, zero2_apply, zero_add, Finset.sum_range_one, contribN2_of_lt V c g k 0 hn]
    rfl
  | n + 1, hn => by
    rw [accAt2_succ, acc2_apply, accAt2_eq_sum c g k n (Nat.lt_of_succ_lt hn), Finset.sum_range_succ _ (n + 1),
      contribN2_of_lt V c g k (n + 1) hn]
    rfl

theorem lt_grid2 (t : Fin 20) : t.val < cfg2.N := lt_of_lt_of_eq t.isLt (show 20 = cfg2.N from N_2.symm)

theorem accLast2_eq_sum (c : Dev nD) (g : Fin 512) (k : Fin 64) :
    (accAt2 V c 19 (by decide) : S512x64.Idx → EReal) (ix2 g k) = ∑ t : Fin 20, contrib2 V c ⟨t.val, lt_grid2 t⟩ g k := by
  rw [accAt2_eq_sum V c g k 19 (by decide), ← Fin.sum_univ_eq_sum_range (fun t => contribN2 V c g k t) 20]
  exact Finset.sum_congr rfl fun t _ => contribN2_of_lt V c g k t.val _

end Cert.KernelIdeal.Val

end
-- ==== Proof.KI.Value2.Out.lean ====
import proofs.«413058_j7705171329584_2_alg».proof.Proof.KI.Region2.Defs
import proofs.«413058_j7705171329584_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : Cert.KernelIdeal.Rg.VTy Idealize.ShloMosaic.Ideal)

abbrev tLast : Fin cfg2.N := ⟨19, by decide⟩

theorem flush10_last (t : Fin cfg2.N) (hf : (cfg2.win 10).flush t = true) : t = tLast := by
  have hN : cfg2.N = 20 := N_2
  have h := (flush2_10 t).mp hf
  have hlt := t.isLt
  exact Fin.ext (by show t.val = 19; omega)

theorem idx10_last : ∀ a : Fin 2, win2_10.index tLast a = 0 := by decide +kernel

-- the one block the last point writes back is the whole result array
theorem emb10 (j : S512x1.Idx) : ((cfg2.win 10).blk tLast).view.emb j = j :=
  funext fun a => Fin.ext (win2_10.rect_emb_val_of_index_zero tLast a (idx10_last a) j)

theorem flushed10 (c : Dev nD) (t : Fin cfg2.N) (hf : (cfg2.win 10).flush t = true) :
    (Cert.KernelIdeal.Rg.dat2 V c).flushed 10 t
      = ((cfg2.win 10).blk t).view.read (Elt Idealize.ShloMosaic.Ideal) (Cert.KernelIdeal.Rg.outLast2 V c tLast) := by
  obtain rfl := flush10_last t hf
  show (cfg2.win 10).cut (grid2.coords tLast) ((Cert.KernelIdeal.Rg.dat2 V c).after 10 tLast) = _
  rw [Cert.KernelIdeal.Rg.after2_10]
  exact funext fun j => (congrArg (Cert.KernelIdeal.Rg.outLast2 V c tLast : S512x1.Idx → EReal) (emb10 j)).symm

theorem arrAt10 (c : Dev nD) : ((Cert.KernelIdeal.Rg.dat2 V c).arrAt 10 cfg2.N : S512x1.Idx → EReal)
    = (Cert.KernelIdeal.Rg.outLast2 V c ⟨19, by decide⟩ : S512x1.Idx → EReal) :=
  funext fun i => (Cert.KernelIdeal.Rg.dat2 V c).arrAt_apply_of_mem 10 (Cert.KernelIdeal.Rg.outLast2 V c tLast) (flushed10 V c) cfg2.N tLast i
    (by decide) ((flush2_10 tLast).mpr (by decide)) (emb10 i ▸ View.emb_mem_set _ _)

end Cert.KernelIdeal.Val

end
-- ==== Proof.KI.Value2.Head.lean ====
import proofs.«413058_j7705171329584_2_alg».proof.Proof.Gen.KernelIdeal.Skeleton
import proofs.«413058_j7705171329584_2_alg».proof.Proof.Spec
import proofs.«413058_j7705171329584_2_alg».proof.Proof.KI.Value2.Products
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

theorem k2_pay2_apply (a : Vec Ideal S512x64 .f32) (l1w : Vec Ideal S64x64 .f32) (l1b : Vec Ideal S1x64 .f32)
    (l2w : Vec Ideal S64x1 .f32) (l2b : Vec Ideal S1x1 .f32) (g : Fin 512) (o : Fin 1) :
    k2_pay2 (F := Ideal) a l1w l1b l2w l2b (ix2 g o)
      = Cert.Spec.lin (Cert.Spec.dense (Cert.Spec.cur2 a) (Cert.Spec.cur2 l1w) (fun q => l1b (ix2 0 q))) (Cert.Spec.cur2 l2w)
          (fun q => l2b (ix2 0 q)) g o := by
  unfold k2_pay2
  rw [show dot_S512x64_S64x1_S512x1_1_0_0_1_n_n = rowsCols 512 64 1 dot_S512x64_S64x1_S512x1_1_0_0_1_n_n_wf from rfl,
    show dot_S512x64_S64x64_S512x64_1_0_0_1_n_n = rowsCols 512 64 64 dot_S512x64_S64x64_S512x64_1_0_0_1_n_n_wf from rfl]
  simp only [addf_apply, maximumf_apply, broadcast_apply, rowsCols_apply, truncf_apply, shapeCast_self, broadcastTo_1b_ab_apply]
  have hzero : (FloatOps.ofBits FTy.f32 0x00000000#32 : Idealize.ShloMosaic.Ideal .f32) = (0 : EReal) := Ideal.ofBits_zero_f32
  rw [hzero]
  rfl

end Cert.KernelIdeal.Val

end
-- ==== Proof.KI.Value2.OutEntry.lean ====
import proofs.«413058_j7705171329584_2_alg».proof.Proof.KI.Region2.Defs
import proofs.«413058_j7705171329584_2_alg».proof.Proof.Spec
import proofs.«413058_j7705171329584_2_alg».proof.Proof.KI.Value2.Head
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem out2_10_apply (a : Vec Ideal S512x64 .f32) (x6 : Vec Ideal S64x64 .f32) (x7 : Vec Ideal S1x64 .f32)
    (x8 : Vec Ideal S64x1 .f32) (x9 : Vec Ideal S1x1 .f32) (g : Fin 512) :
    Cert.KernelIdeal.Rg.out2_10 a x6 x7 x8 x9 (ix2 g 0)
      = Cert.Spec.lin (Cert.Spec.dense (Cert.Spec.cur2 a) (Cert.Spec.cur2 x6) (fun q => x7 (ix2 0 q))) (Cert.Spec.cur2 x8)
          (fun q => x9 (ix2 0 q)) g 0 := by
  unfold Cert.KernelIdeal.Rg.out2_10
  rw [View.canon_unit_zero zero_offsets]
  simp only [View.ld_unit_zero (S := S512x64) zero_offsets, View.ld_unit_zero (S := S64x64) zero_offsets, View.ld_unit_zero (S := S1x64) zero_offsets,
    View.ld_unit_zero (S := S64x1) zero_offsets, View.ld_unit_zero (S := S1x1) zero_offsets]
  exact k2_pay2_apply a x6 x7 x8 x9 g 0

end Cert.KernelIdeal.Val

end
-- ==== Proof.KI.Value2.lean ====
import proofs.«413058_j7705171329584_2_alg».proof.Proof.KI.Region2.Defs
import proofs.«413058_j7705171329584_2_alg».proof.Proof.Spec
import proofs.«413058_j7705171329584_2_alg».proof.Proof.Algebra
import proofs.«413058_j7705171329584_2_alg».proof.Proof.KI.Value2.Blocks
import proofs.«413058_j7705171329584_2_alg».proof.Proof.KI.Value2.Point
import proofs.«413058_j7705171329584_2_alg».proof.Proof.KI.Value2.Acc
import proofs.«413058_j7705171329584_2_alg».proof.Proof.KI.Value2.Out
import proofs.«413058_j7705171329584_2_alg».proof.Proof.KI.Value2.OutEntry
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx

theorem cur2_apply {a b : Nat} (f : (⟨2, ![a, b]⟩ : Shape).Idx → EReal) (p : Fin a) (q : Fin b) : Spec.cur2 f p q = f (ix2 p q) := rfl

theorem accLast2_eq_pool (V : Rg.VTy Ideal) (c : Dev nD) :
    Spec.cur2 (Rg.accAt2 V c 19 (by decide) : S512x64.Idx → EReal) = Spec.pool (G := 512) (upd V c) (gnum V c) := by
  funext g k
  rw [cur2_apply, accLast2_eq_sum V c g k]
  have hshare : ∀ t : Fin 20, contrib2 V c ⟨t.val, lt_grid2 t⟩ g k
      = ∑ r : Fin 5000, if gnum V c ⟨5000 * t.val + r.val, row_lt ⟨t.val, lt_grid2 t⟩ r⟩ = (g.val : Int)
          then upd V c ⟨5000 * t.val + r.val, row_lt ⟨t.val, lt_grid2 t⟩ r⟩ k else 0 :=
    fun t => share_apply V c ⟨t.val, lt_grid2 t⟩ g k
  rw [Finset.sum_congr rfl fun t _ => hshare t]
  exact shares_eq_pool V c g k fun t r => row_lt ⟨t.val, lt_grid2 t⟩ r

theorem final2 (V : (c : Dev nD) → (b : Ref sig .tc) → Buf (Elt Ideal) ((c : Thread nD τ).loc b)) (c : Dev nD) (g : Fin 512) :
    ((Cert.KernelIdeal.Rg.dat2 V c).arrAt 10 cfg2.N : S512x1.Idx → EReal) (ix2 g 0)
      = Cert.Spec.lin (Cert.Spec.dense (Cert.Spec.pool (G := 512)
          (Cert.Spec.dense (Cert.Spec.dense (Cert.Spec.cur2 (V c main_v52)) (Cert.Spec.cur2 (V c main_arg11))
              (fun q => (V c main_v53 : S1x64.Idx → EReal) (ix2 0 q)))
            (Cert.Spec.cur2 (V c main_arg13)) (fun q => (V c main_v54 : S1x64.Idx → EReal) (ix2 0 q)))
          (fun n => ((V c main_v4 : S100000x1.Idx → BitVec 32) (ix2 n 0)).toInt))
          (Cert.Spec.cur2 (V c main_arg15)) (fun q => (V c main_v55 : S1x64.Idx → EReal) (ix2 0 q)))
        (Cert.Spec.cur2 (V c main_arg17)) (fun q => (V c main_v56 : S1x1.Idx → EReal) (ix2 0 q)) g 0 := by
  rw [arrAt10 V c]
  show (Rg.out2_10 (Rg.accAt2 V c 19 (by decide)) (Rg.iblk2 V c 6 tLast) (Rg.iblk2 V c 7 tLast) (Rg.iblk2 V c 8 tLast)
    (Rg.iblk2 V c 9 tLast) : S512x1.Idx → EReal) (ix2 g 0) = _
  refine (out2_10_apply _ _ _ _ _ g).trans ?_
  rw [iblk2_6_eq V c tLast, iblk2_7_eq V c tLast, iblk2_8_eq V c tLast, iblk2_9_eq V c tLast, accLast2_eq_pool V c]

end Cert.KernelIdeal.Val

end
-- ==== Proof.KI.Value0.lean ====
import proofs.«413058_j7705171329584_2_alg».proof.Proof.KI.Region0
import proofs.«413058_j7705171329584_2_alg».proof.Proof.Spec
import proofs.«413058_j7705171329584_2_alg».proof.Proof.KI.Value2.Products

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the payload is two layers, each a product with a bias row and a rectifier
theorem pay0_apply (x0 : Vec Ideal S5000x64 .f32) (x1 : Vec Ideal S64x64 .f32) (x2 : Vec Ideal S1x64 .f32)
    (x3 : Vec Ideal S64x64 .f32) (x4 : Vec Ideal S1x64 .f32) (r : Fin 5000) (k : Fin 64) :
    (k0_pay1 x0 x1 x2 x3 x4 : S5000x64.Idx → EReal) (ix2 r k)
      = Cert.Spec.dense (Cert.Spec.dense (Cert.Spec.cur2 x0) (Cert.Spec.cur2 x1) (fun q => (x2 : S1x64.Idx → EReal) (ix2 0 q)))
          (Cert.Spec.cur2 x3) (fun q => (x4 : S1x64.Idx → EReal) (ix2 0 q)) r k := by
  unfold k0_pay1
  rw [shapeCast_self x0, show dot_S5000x64_S64x64_S5000x64_1_0_0_1_n_n = rowsCols 5000 64 64 Facts₀.dot_S5000x64_S64x64_S5000x64_1_0_0_1_n_n_wf from rfl,
    layer_apply]
  exact congrArg (fun z => Cert.Spec.dense z _ _ r k) (funext fun n => funext fun c => layer_apply _ _ _ _ _ _ _ n c)

variable (V : (c : Dev nD) → (b : Ref sig .tc) → Buf (Elt Idealize.ShloMosaic.Ideal) ((c : Thread nD τ).loc b))

def G0 (c : Dev nD) : S100000x64.Idx → EReal := fun i =>
  Cert.Spec.dense (Cert.Spec.dense (Cert.Spec.cur2 (V c (Pipeline.arrRef spec0 0) : S100000x64.Idx → EReal))
            (Cert.Spec.cur2 (V c (Pipeline.arrRef spec0 1) : S64x64.Idx → EReal))
            (fun q => (V c (Pipeline.arrRef spec0 2) : S1x64.Idx → EReal) (ix2 0 q)))
          (Cert.Spec.cur2 (V c (Pipeline.arrRef spec0 3) : S64x64.Idx → EReal))
          (fun q => (V c (Pipeline.arrRef spec0 4) : S1x64.Idx → EReal) (ix2 0 q)) (i 0) (i 1)

theorem idx_facts0_5 : ∀ t : Fin cfg0.N, (∀ a : Fin 2, win0_1.index t a = 0 ∧ win0_2.index t a = 0 ∧ win0_3.index t a = 0 ∧ win0_4.index t a = 0)
    ∧ win0_5.index t (0 : Fin 2) = t.val ∧ win0_5.index t (1 : Fin 2) = 0 :=
  (by decide +kernel : ∀ t : Fin grid0.N, _)

-- a block at offset zero that is as large as its array is the array
theorem pay0_read_1 (c : Dev nD) (t : Fin cfg0.N) :
    (Cert.KernelIdeal.Rg.iblk0 V c 1 t : S64x64.Idx → EReal) = (V c (Pipeline.arrRef spec0 1) : S64x64.Idx → EReal) :=
  funext fun y => congrArg (V c (Pipeline.arrRef spec0 1) : S64x64.Idx → EReal)
    (funext fun a => Fin.ext (win0_1.rect_emb_val_of_index_zero t a ((idx_facts0_5 t).1 a).1 y))

theorem pay0_read_2 (c : Dev nD) (t : Fin cfg0.N) :
    (Cert.KernelIdeal.Rg.iblk0 V c 2 t : S1x64.Idx → EReal) = (V c (Pipeline.arrRef spec0 2) : S1x64.Idx → EReal) :=
  funext fun y => congrArg (V c (Pipeline.arrRef spec0 2) : S1x64.Idx → EReal)
    (funext fun a => Fin.ext (win0_2.rect_emb_val_of_index_zero t a ((idx_facts0_5 t).1 a).2.1 y))

theorem pay0_read_3 (c : Dev nD) (t : Fin cfg0.N) :
    (Cert.KernelIdeal.Rg.iblk0 V c 3 t : S64x64.Idx → EReal) = (V c (Pipeline.arrRef spec0 3) : S64x64.Idx → EReal) :=
  funext fun y => congrArg (V c (Pipeline.arrRef spec0 3) : S64x64.Idx → EReal)
    (funext fun a => Fin.ext (win0_3.rect_emb_val_of_index_zero t a ((idx_facts0_5 t).1 a).2.2.1 y))

theorem pay0_read_4 (c : Dev nD) (t : Fin cfg0.N) :
    (Cert.KernelIdeal.Rg.iblk0 V c 4 t : S1x64.Idx → EReal) = (V c (Pipeline.arrRef spec0 4) : S1x64.Idx → EReal) :=
  funext fun y => congrArg (V c (Pipeline.arrRef spec0 4) : S1x64.Idx → EReal)
    (funext fun a => Fin.ext (win0_4.rect_emb_val_of_index_zero t a ((idx_facts0_5 t).1 a).2.2.2 y))

-- entry (p, q) of block t is entry (5000 t + p, q) of the array
theorem emb0_5 (t : Fin cfg0.N) (p : Fin 5000) (q : Fin 64) (n : Fin 100000) (hn : n.val = 5000 * t.val + p.val) :
    ((cfg0.win 5).blk t).view.emb (ix2 p q) = (ix2 n q : S100000x64.Idx) := by
  obtain ⟨-, e50, e51⟩ := idx_facts0_5 t
  funext a; apply Fin.ext
  match a with
  | ⟨0, _⟩ => show win0_5.index t (0 : Fin 2) * 5000 + 1 * p.val = n.val; omega
  | ⟨1, _⟩ => show win0_5.index t (1 : Fin 2) * 64 + 1 * q.val = q.val; omega

-- block t of the input and block t of the output are the same rows
theorem pay0_read_0 (c : Dev nD) (t : Fin cfg0.N) (p : Fin 5000) (j : Fin 64) (n : Fin 100000) (hn : n.val = 5000 * t.val + p.val) :
    (Cert.KernelIdeal.Rg.iblk0 V c 0 t : S5000x64.Idx → EReal) (ix2 p j) = (V c (Pipeline.arrRef spec0 0) : S100000x64.Idx → EReal) (ix2 n j) :=
  congrArg (V c (Pipeline.arrRef spec0 0) : S100000x64.Idx → EReal) (emb0_5 t p j n hn)

theorem flushed_eq0 (c : Dev nD) (t : Fin cfg0.N) :
    (Cert.KernelIdeal.Rg.dat0 V c).flushed 5 t = ((cfg0.win 5).blk t).view.read (Elt Idealize.ShloMosaic.Ideal) (G0 V c) := by
  show (cfg0.win 5).cut (grid0.coords t) ((Cert.KernelIdeal.Rg.dat0 V c).after 5 t) = _
  rw [Cert.KernelIdeal.Rg.after0_5]
  unfold Cert.KernelIdeal.Rg.out0_5
  rw [View.canon_unit_zero zero_offsets]
  simp only [View.ld_unit_zero (S := S5000x64) zero_offsets, View.ld_unit_zero (S := S64x64) zero_offsets, View.ld_unit_zero (S := S1x64) zero_offsets]
  have ht : t.val < 20 := t.isLt
  funext j
  obtain ⟨p, q, rfl⟩ : ∃ (p : Fin 5000) (q : Fin 64), j = ix2 p q := ⟨j 0, j 1, eq_ix2 j⟩
  show k0_pay1 (Cert.KernelIdeal.Rg.iblk0 V c 0 t) (Cert.KernelIdeal.Rg.iblk0 V c 1 t) (Cert.KernelIdeal.Rg.iblk0 V c 2 t)
      (Cert.KernelIdeal.Rg.iblk0 V c 3 t) (Cert.KernelIdeal.Rg.iblk0 V c 4 t) (ix2 p q) = G0 V c (((cfg0.win 5).blk t).view.emb (ix2 p q))
  rw [emb0_5 t p q ⟨5000 * t.val + p.val, by omega⟩ rfl, pay0_apply, pay0_read_1, pay0_read_2, pay0_read_3, pay0_read_4]
  exact dense2_row _ _ _ _ _ _ p _ q fun j => pay0_read_0 V c t p j _ rfl

theorem final0 (c : Dev nD) (n : Fin 100000) (k : Fin 64) :
    ((Cert.KernelIdeal.Rg.dat0 V c).arrAt 5 cfg0.N : S100000x64.Idx → EReal) (ix2 n k)
      = Cert.Spec.dense (Cert.Spec.dense (Cert.Spec.cur2 (V c (Pipeline.arrRef spec0 0) : S100000x64.Idx → EReal))
            (Cert.Spec.cur2 (V c (Pipeline.arrRef spec0 1) : S64x64.Idx → EReal))
            (fun q => (V c (Pipeline.arrRef spec0 2) : S1x64.Idx → EReal) (ix2 0 q)))
          (Cert.Spec.cur2 (V c (Pipeline.arrRef spec0 3) : S64x64.Idx → EReal))
          (fun q => (V c (Pipeline.arrRef spec0 4) : S1x64.Idx → EReal) (ix2 0 q)) n k := by
  have hn : n.val / 5000 < cfg0.N := by show _ < 20; omega
  exact (Cert.KernelIdeal.Rg.dat0 V c).arrAt_apply_of_mem 5 (G0 V c) (fun t _ => flushed_eq0 V c t) cfg0.N ⟨n.val / 5000, hn⟩ (ix2 n k) hn (flush0_5 _)
    (emb0_5 ⟨n.val / 5000, hn⟩ ⟨n.val % 5000, Nat.mod_lt _ (by decide)⟩ k n (by show n.val = 5000 * (n.val / 5000) + n.val % 5000; omega) ▸ View.emb_mem_set _ _)

end Cert.KernelIdeal.Val

end
-- ==== Proof.KI.Value1.lean ====
import proofs.«413058_j7705171329584_2_alg».proof.Proof.KI.Region1
import proofs.«413058_j7705171329584_2_alg».proof.Proof.Spec
import proofs.«413058_j7705171329584_2_alg».proof.Proof.KI.Value2.Products

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the payload is two layers, each a product with a bias row and a rectifier
theorem pay1_apply (x0 : Vec Ideal S5000x64 .f32) (x1 : Vec Ideal S64x64 .f32) (x2 : Vec Ideal S1x64 .f32)
    (x3 : Vec Ideal S64x64 .f32) (x4 : Vec Ideal S1x64 .f32) (r : Fin 5000) (k : Fin 64) :
    (k1_pay1 x0 x1 x2 x3 x4 : S5000x64.Idx → EReal) (ix2 r k)
      = Cert.Spec.dense (Cert.Spec.dense (Cert.Spec.cur2 x0) (Cert.Spec.cur2 x1) (fun q => (x2 : S1x64.Idx → EReal) (ix2 0 q)))
          (Cert.Spec.cur2 x3) (fun q => (x4 : S1x64.Idx → EReal) (ix2 0 q)) r k := by
  unfold k1_pay1
  rw [shapeCast_self x0, show dot_S5000x64_S64x64_S5000x64_1_0_0_1_n_n = rowsCols 5000 64 64 Facts₀.dot_S5000x64_S64x64_S5000x64_1_0_0_1_n_n_wf from rfl,
    layer_apply]
  exact congrArg (fun z => Cert.Spec.dense z _ _ r k) (funext fun n => funext fun c => layer_apply _ _ _ _ _ _ _ n c)

variable (V : (c : Dev nD) → (b : Ref sig .tc) → Buf (Elt Idealize.ShloMosaic.Ideal) ((c : Thread nD τ).loc b))

def G1 (c : Dev nD) : S100000x64.Idx → EReal := fun i =>
  Cert.Spec.dense (Cert.Spec.dense (Cert.Spec.cur2 (V c (Pipeline.arrRef spec1 0) : S100000x64.Idx → EReal))
            (Cert.Spec.cur2 (V c (Pipeline.arrRef spec1 1) : S64x64.Idx → EReal))
            (fun q => (V c (Pipeline.arrRef spec1 2) : S1x64.Idx → EReal) (ix2 0 q)))
          (Cert.Spec.cur2 (V c (Pipeline.arrRef spec1 3) : S64x64.Idx → EReal))
          (fun q => (V c (Pipeline.arrRef spec1 4) : S1x64.Idx → EReal) (ix2 0 q)) (i 0) (i 1)

theorem idx_facts1_5 : ∀ t : Fin cfg1.N, (∀ a : Fin 2, win1_1.index t a = 0 ∧ win1_2.index t a = 0 ∧ win1_3.index t a = 0 ∧ win1_4.index t a = 0)
    ∧ win1_5.index t (0 : Fin 2) = t.val ∧ win1_5.index t (1 : Fin 2) = 0 :=
  (by decide +kernel : ∀ t : Fin grid1.N, _)

-- a block at offset zero that is as large as its array is the array
theorem pay1_read_1 (c : Dev nD) (t : Fin cfg1.N) :
    (Cert.KernelIdeal.Rg.iblk1 V c 1 t : S64x64.Idx → EReal) = (V c (Pipeline.arrRef spec1 1) : S64x64.Idx → EReal) :=
  funext fun y => congrArg (V c (Pipeline.arrRef spec1 1) : S64x64.Idx → EReal)
    (funext fun a => Fin.ext (win1_1.rect_emb_val_of_index_zero t a ((idx_facts1_5 t).1 a).1 y))

theorem pay1_read_2 (c : Dev nD) (t : Fin cfg1.N) :
    (Cert.KernelIdeal.Rg.iblk1 V c 2 t : S1x64.Idx → EReal) = (V c (Pipeline.arrRef spec1 2) : S1x64.Idx → EReal) :=
  funext fun y => congrArg (V c (Pipeline.arrRef spec1 2) : S1x64.Idx → EReal)
    (funext fun a => Fin.ext (win1_2.rect_emb_val_of_index_zero t a ((idx_facts1_5 t).1 a).2.1 y))

theorem pay1_read_3 (c : Dev nD) (t : Fin cfg1.N) :
    (Cert.KernelIdeal.Rg.iblk1 V c 3 t : S64x64.Idx → EReal) = (V c (Pipeline.arrRef spec1 3) : S64x64.Idx → EReal) :=
  funext fun y => congrArg (V c (Pipeline.arrRef spec1 3) : S64x64.Idx → EReal)
    (funext fun a => Fin.ext (win1_3.rect_emb_val_of_index_zero t a ((idx_facts1_5 t).1 a).2.2.1 y))

theorem pay1_read_4 (c : Dev nD) (t : Fin cfg1.N) :
    (Cert.KernelIdeal.Rg.iblk1 V c 4 t : S1x64.Idx → EReal) = (V c (Pipeline.arrRef spec1 4) : S1x64.Idx → EReal) :=
  funext fun y => congrArg (V c (Pipeline.arrRef spec1 4) : S1x64.Idx → EReal)
    (funext fun a => Fin.ext (win1_4.rect_emb_val_of_index_zero t a ((idx_facts1_5 t).1 a).2.2.2 y))

-- entry (p, q) of block t is entry (5000 t + p, q) of the array
theorem emb1_5 (t : Fin cfg1.N) (p : Fin 5000) (q : Fin 64) (n : Fin 100000) (hn : n.val = 5000 * t.val + p.val) :
    ((cfg1.win 5).blk t).view.emb (ix2 p q) = (ix2 n q : S100000x64.Idx) := by
  obtain ⟨-, e50, e51⟩ := idx_facts1_5 t
  funext a; apply Fin.ext
  match a with
  | ⟨0, _⟩ => show win1_5.index t (0 : Fin 2) * 5000 + 1 * p.val = n.val; omega
  | ⟨1, _⟩ => show win1_5.index t (1 : Fin 2) * 64 + 1 * q.val = q.val; omega

-- block t of the input and block t of the output are the same rows
theorem pay1_read_0 (c : Dev nD) (t : Fin cfg1.N) (p : Fin 5000) (j : Fin 64) (n : Fin 100000) (hn : n.val = 5000 * t.val + p.val) :
    (Cert.KernelIdeal.Rg.iblk1 V c 0 t : S5000x64.Idx → EReal) (ix2 p j) = (V c (Pipeline.arrRef spec1 0) : S100000x64.Idx → EReal) (ix2 n j) :=
  congrArg (V c (Pipeline.arrRef spec1 0) : S100000x64.Idx → EReal) (emb1_5 t p j n hn)

theorem flushed_eq1 (c : Dev nD) (t : Fin cfg1.N) :
    (Cert.KernelIdeal.Rg.dat1 V c).flushed 5 t = ((cfg1.win 5).blk t).view.read (Elt Idealize.ShloMosaic.Ideal) (G1 V c) := by
  show (cfg1.win 5).cut (grid1.coords t) ((Cert.KernelIdeal.Rg.dat1 V c).after 5 t) = _
  rw [Cert.KernelIdeal.Rg.after1_5]
  unfold Cert.KernelIdeal.Rg.out1_5
  rw [View.canon_unit_zero zero_offsets]
  simp only [View.ld_unit_zero (S := S5000x64) zero_offsets, View.ld_unit_zero (S := S64x64) zero_offsets, View.ld_unit_zero (S := S1x64) zero_offsets]
  have ht : t.val < 20 := t.isLt
  funext j
  obtain ⟨p, q, rfl⟩ : ∃ (p : Fin 5000) (q : Fin 64), j = ix2 p q := ⟨j 0, j 1, eq_ix2 j⟩
  show k1_pay1 (Cert.KernelIdeal.Rg.iblk1 V c 0 t) (Cert.KernelIdeal.Rg.iblk1 V c 1 t) (Cert.KernelIdeal.Rg.iblk1 V c 2 t)
      (Cert.KernelIdeal.Rg.iblk1 V c 3 t) (Cert.KernelIdeal.Rg.iblk1 V c 4 t) (ix2 p q) = G1 V c (((cfg1.win 5).blk t).view.emb (ix2 p q))
  rw [emb1_5 t p q ⟨5000 * t.val + p.val, by omega⟩ rfl, pay1_apply, pay1_read_1, pay1_read_2, pay1_read_3, pay1_read_4]
  exact dense2_row _ _ _ _ _ _ p _ q fun j => pay1_read_0 V c t p j _ rfl

theorem final1 (c : Dev nD) (n : Fin 100000) (k : Fin 64) :
    ((Cert.KernelIdeal.Rg.dat1 V c).arrAt 5 cfg1.N : S100000x64.Idx → EReal) (ix2 n k)
      = Cert.Spec.dense (Cert.Spec.dense (Cert.Spec.cur2 (V c (Pipeline.arrRef spec1 0) : S100000x64.Idx → EReal))
            (Cert.Spec.cur2 (V c (Pipeline.arrRef spec1 1) : S64x64.Idx → EReal))
            (fun q => (V c (Pipeline.arrRef spec1 2) : S1x64.Idx → EReal) (ix2 0 q)))
          (Cert.Spec.cur2 (V c (Pipeline.arrRef spec1 3) : S64x64.Idx → EReal))
          (fun q => (V c (Pipeline.arrRef spec1 4) : S1x64.Idx → EReal) (ix2 0 q)) n k := by
  have hn : n.val / 5000 < cfg1.N := by show _ < 20; omega
  exact (Cert.KernelIdeal.Rg.dat1 V c).arrAt_apply_of_mem 5 (G1 V c) (fun t _ => flushed_eq1 V c t) cfg1.N ⟨n.val / 5000, hn⟩ (ix2 n k) hn (flush1_5 _)
    (emb1_5 ⟨n.val / 5000, hn⟩ ⟨n.val % 5000, Nat.mod_lt _ (by decide)⟩ k n (by show n.val = 5000 * (n.val / 5000) + n.val % 5000; omega) ▸ View.emb_mem_set _ _)

end Cert.KernelIdeal.Val

end
-- ==== Proof.KI.Spine1.lean ====
import proofs.«413058_j7705171329584_2_alg».proof.Proof.KI.Run
import proofs.«413058_j7705171329584_2_alg».proof.Proof.KI.Host
import proofs.«413058_j7705171329584_2_alg».proof.Proof.KI.Value0
import proofs.«413058_j7705171329584_2_alg».proof.Proof.KI.Value1
import proofs.«413058_j7705171329584_2_alg».proof.Proof.Spec
import Idealize.ShloMosaic.Lib.ValueIdx

noncomputable section

namespace Cert.KernelIdeal.Val

open Cert.KernelIdeal Cert.KernelIdeal.Gen Cert.KernelIdeal.Rg
open Idealize.ShloMosaic Idealize.ShloMosaic.TcCoe Idealize.ShloMosaic.ValueIdx Idealize.SL.Sem

theorem dense2_congr {N C : Nat} {z z' : Fin N → Fin C → EReal} {w1 w1' w2 w2' : Fin C → Fin C → EReal} {b1 b1' b2 b2' : Fin C → EReal}
    (hz : z = z') (h1 : w1 = w1') (hb1 : b1 = b1') (h2 : w2 = w2') (hb2 : b2 = b2') (n : Fin N) (k : Fin C) :
    Cert.Spec.dense (Cert.Spec.dense z w1 b1) w2 b2 n k = Cert.Spec.dense (Cert.Spec.dense z' w1' b1') w2' b2' n k := by
  subst hz h1 hb1 h2 hb2
  rfl

theorem agg_congr {N E C : Nat} (h : Fin N → Fin C → EReal) {s s' : Fin E → Fin N} {d d' : Fin E → Int} (hs : s = s') (hd : d = d') :
    Cert.Spec.agg h s d = Cert.Spec.agg h s' d' := by
  subst hs hd
  rfl

theorem layer1 (m : (ℓ : Loc nD τ sig) → Buf (Elt Ideal) ℓ) (ρ : Dev nD → PrngReg) (c : Dev nD) (n : Fin 100000) (k : Fin 64) :
    (Cert.KernelIdeal.Rg.W2 m ρ c (Proc.devRef .tc main_v21) : S100000x64.Idx → EReal) (ix2 n k)
      = Cert.Spec.conv (Cert.Spec.cur2 (m ((c : Thread nD τ).loc main_arg0) : S100000x64.Idx → EReal))
          (fun e => Cert.Spec.srcRowOf ((m ((c : Thread nD τ).loc main_arg1) : S2x1600000.Idx → BitVec 32) (ix2 0 e)))
          (fun e => (Cert.KernelIdeal.HostValue.dstNorm ((m ((c : Thread nD τ).loc main_arg1) : S2x1600000.Idx → BitVec 32) (ix2 1 e))).toInt)
          (Cert.Spec.cur2 (m ((c : Thread nD τ).loc main_arg3) : S64x64.Idx → EReal)) (Cert.Spec.cur1 (m ((c : Thread nD τ).loc main_arg4) : S64.Idx → EReal))
          (Cert.Spec.cur2 (m ((c : Thread nD τ).loc main_arg5) : S64x64.Idx → EReal)) (Cert.Spec.cur1 (m ((c : Thread nD τ).loc main_arg6) : S64.Idx → EReal)) n k := by
  refine (congrFun (W2_arr m ρ c 5) _).trans ((final0 (V1 m ρ) c n k).trans ?_)
  exact dense2_congr (funext fun n => funext fun k => HostValue.agg0 (W0 m ρ c) n k)
    (congrArg (Cert.Spec.cur2 (a := 64) (b := 64)) (HostValue.pass0 (W0 m ρ c) main_arg3 (by decide))) (funext fun q => HostValue.v19 (W0 m ρ c) q)
    (congrArg (Cert.Spec.cur2 (a := 64) (b := 64)) (HostValue.pass0 (W0 m ρ c) main_arg5 (by decide))) (funext fun q => HostValue.v20 (W0 m ρ c) q) n k

theorem W2_arg (m : (ℓ : Loc nD τ sig) → Buf (Elt Ideal) ℓ) (ρ : Dev nD → PrngReg) (c : Dev nD) (b : Ref sig .tc)
    (h21 : b ≠ main_v21) (h0 : b ∉ hostOps0_W) :
    Cert.KernelIdeal.Rg.W2 m ρ c (Proc.devRef .tc b) = m ((c : Thread nD τ).loc b) :=
  (W2_keeps m ρ c b h21).trans (HostValue.pass0 (W0 m ρ c) b h0)

theorem W2_src (m : (ℓ : Loc nD τ sig) → Buf (Elt Ideal) ℓ) (ρ : Dev nD → PrngReg) (c : Dev nD) (e : Fin 1600000) :
    (Cert.KernelIdeal.Rg.W2 m ρ c (Proc.devRef .tc main_v1) : S1600000.Idx → BitVec 32) (ix1 e)
      = (m ((c : Thread nD τ).loc main_arg1) : S2x1600000.Idx → BitVec 32) (ix2 0 e) :=
  (congrFun (W2_keeps m ρ c main_v1 (by decide)) (ix1 e)).trans (HostValue.v1 (W0 m ρ c) e)

theorem W2_dst (m : (ℓ : Loc nD τ sig) → Buf (Elt Ideal) ℓ) (ρ : Dev nD → PrngReg) (c : Dev nD) (e : Fin 1600000) :
    (Cert.KernelIdeal.Rg.W2 m ρ c (Proc.devRef .tc main_v3) : S1600000.Idx → BitVec 32) (ix1 e)
      = (m ((c : Thread nD τ).loc main_arg1) : S2x1600000.Idx → BitVec 32) (ix2 1 e) :=
  (congrFun (W2_keeps m ρ c main_v3 (by decide)) (ix1 e)).trans (HostValue.v3 (W0 m ρ c) e)

theorem layer2 (m : (ℓ : Loc nD τ sig) → Buf (Elt Ideal) ℓ) (ρ : Dev nD → PrngReg) (c : Dev nD) (n : Fin 100000) (k : Fin 64) :
    (Cert.KernelIdeal.Rg.W4 m ρ c (Proc.devRef .tc main_v38) : S100000x64.Idx → EReal) (ix2 n k)
      = Cert.Spec.conv (Cert.Spec.cur2 (Cert.KernelIdeal.Rg.W2 m ρ c (Proc.devRef .tc main_v21) : S100000x64.Idx → EReal))
          (fun e => Cert.Spec.srcRowOf ((m ((c : Thread nD τ).loc main_arg1) : S2x1600000.Idx → BitVec 32) (ix2 0 e)))
          (fun e => (Cert.KernelIdeal.HostValue.dstNorm ((m ((c : Thread nD τ).loc main_arg1) : S2x1600000.Idx → BitVec 32) (ix2 1 e))).toInt)
          (Cert.Spec.cur2 (m ((c : Thread nD τ).loc main_arg7) : S64x64.Idx → EReal)) (Cert.Spec.cur1 (m ((c : Thread nD τ).loc main_arg8) : S64.Idx → EReal))
          (Cert.Spec.cur2 (m ((c : Thread nD τ).loc main_arg9) : S64x64.Idx → EReal)) (Cert.Spec.cur1 (m ((c : Thread nD τ).loc main_arg10) : S64.Idx → EReal)) n k := by
  refine (congrFun (W4_arr m ρ c 5) _).trans ((final1 (V3 m ρ) c n k).trans ?_)
  exact dense2_congr
    ((funext fun n => funext fun k => HostValue.agg1 (Cert.KernelIdeal.Rg.W2 m ρ c) n k).trans
      (agg_congr _ (funext fun e => congrArg Cert.Spec.srcRowOf (W2_src m ρ c e))
        (funext fun e => congrArg (fun w => (Cert.KernelIdeal.HostValue.dstNorm w).toInt) (W2_dst m ρ c e))))
    (congrArg (Cert.Spec.cur2 (a := 64) (b := 64)) ((HostValue.pass1 (Cert.KernelIdeal.Rg.W2 m ρ c) main_arg7 (by decide)).trans (W2_arg m ρ c main_arg7 (by decide) (by decide))))
    (funext fun q => (HostValue.v36 (Cert.KernelIdeal.Rg.W2 m ρ c) q).trans (congrFun (W2_arg m ρ c main_arg8 (by decide) (by decide)) (ix1 q)))
    (congrArg (Cert.Spec.cur2 (a := 64) (b := 64)) ((HostValue.pass1 (Cert.KernelIdeal.Rg.W2 m ρ c) main_arg9 (by decide)).trans (W2_arg m ρ c main_arg9 (by decide) (by decide))))
    (funext fun q => (HostValue.v37 (Cert.KernelIdeal.Rg.W2 m ρ c) q).trans (congrFun (W2_arg m ρ c main_arg10 (by decide) (by decide)) (ix1 q))) n k

end Cert.KernelIdeal.Val

end
-- ==== Proof.Pre.lean ====
import proofs.«413058_j7705171329584_2_alg».proof.Defs
import Idealize.ShloMosaic.Lib.StableHlo.Predicate
import Idealize.ShloMosaic.Lib.ReduceAll
import Idealize.ShloMosaic.Lib.ValueIdx
import Idealize.ShloMosaic.Lib.ValueLayout

noncomputable section

namespace Cert.PreFacts

open Idealize.ShloMosaic Idealize.ShloMosaic.ValueIdx Idealize.SL.Sem
open Cert.Pre_finite_inputs

variable [hPre_finite_inputs : Cert.Pre_finite_inputs.Facts]

instance : Subsingleton S_.Idx := ⟨fun a b => funext fun d => d.elim0⟩

theorem nonneg_of_part5 {F : FTy → Type} [FloatOps F] (v83 : IVec S_ 1) (v85 : IVec S1600000 32)
    (h : fn_part5 (F := F) v83 v85 ix0 = 1#1) (e : Fin 1600000) : 0 ≤ (v85 (ix1 e)).toInt := by
  unfold fn_part5 at h
  dsimp only [andi] at h
  obtain ⟨-, hall⟩ := IntOp.andi_eq_one.1 h
  have he := Host.reduce_andi_all _ _ _ _ _ hall (ix1 e)
  have hle := IntOp.cmpi_sge.1 he
  exact hle

theorem row1_apply (a1 : IVec S2x1600000 32) (e : Fin 1600000) :
    shapeCast S1600000 (extractStridedSlice S1x1600000 ![1, 0] a1 Facts.slices_S2x1600000_S1x1600000_1_0)
      Facts.shapeCasts_S1x1600000_S1600000 (ix1 e) = a1 (ix2 1 e) := by
  rw [shapeCast_1a_a_apply, slice2_axis0_apply 1 a1 _ 0 e 1 rfl]

theorem dst_nonneg_of_fn {F : FTy → Type} [FloatOps F] (a0 : FVec F S100000x64 .f32) (a1 : IVec S2x1600000 32)
    (a2 : IVec S100000 32) (a3 : FVec F S64x64 .f32) (a4 : FVec F S64 .f32) (a5 : FVec F S64x64 .f32)
    (a6 : FVec F S64 .f32) (a7 : FVec F S64x64 .f32) (a8 : FVec F S64 .f32) (a9 : FVec F S64x64 .f32)
    (a10 : FVec F S64 .f32) (a11 : FVec F S64x64 .f32) (a12 : FVec F S64 .f32) (a13 : FVec F S64x64 .f32)
    (a14 : FVec F S64 .f32) (a15 : FVec F S64x64 .f32) (a16 : FVec F S64 .f32) (a17 : FVec F S64x1 .f32)
    (a18 : FVec F S1 .f32)
    (h : Cert.Pre_finite_inputs.fn (F := F) a0 a1 a2 a3 a4 a5 a6 a7 a8 a9 a10 a11 a12 a13 a14 a15 a16 a17 a18 = (fun _ => 1#1))
    (e : Fin 1600000) : 0 ≤ ((a1 : S2x1600000.Idx → BitVec 32) (ix2 1 e)).toInt := by
  rw [← row1_apply a1 e]
  exact nonneg_of_part5 (F := F) _ _ (congrFun h ix0) e

-- The precondition's last conjunct: every destination number of the edge list is nonnegative.
theorem dst_nonneg (m : (ℓ : Loc Cert.KernelIdeal.nD Cert.KernelIdeal.τ Cert.KernelIdeal.sig) → Buf (Elt Ideal) ℓ)
    (h : Cert.Pre_KernelIdeal m) (c : Dev Cert.KernelIdeal.nD) (e : Fin 1600000) :
    0 ≤ ((m ((c.tc : Thread Cert.KernelIdeal.nD Cert.KernelIdeal.τ).loc Cert.KernelIdeal.main_arg1) :
      Cert.KernelIdeal.S2x1600000.Idx → BitVec 32) (ix2 1 e)).toInt :=
  dst_nonneg_of_fn (F := Ideal) _ _ _ _ _ _ _ _ _ _ _ _ _ _ _ _ _ _ _ (h c) e

end Cert.PreFacts

end
-- ==== Proof.KI.Spine.lean ====
import proofs.«413058_j7705171329584_2_alg».proof.Proof.KI.Run
import proofs.«413058_j7705171329584_2_alg».proof.Proof.KI.Host
import proofs.«413058_j7705171329584_2_alg».proof.Proof.KI.Value2
import proofs.«413058_j7705171329584_2_alg».proof.Proof.KI.Spine1
import proofs.«413058_j7705171329584_2_alg».proof.Proof.Spec
import proofs.«413058_j7705171329584_2_alg».proof.Proof.Pre
import Idealize.ShloMosaic.Lib.ValueIdx

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem W4_of_W1 (b : Ref sig .tc) (h1 : b ∉ hostOps1_W) (hv : b ≠ main_v21 ∧ b ≠ main_v38) :
    W4 m ρ c (Proc.devRef .tc b) = W1 m ρ c (Proc.devRef .tc b) :=
  (W4_keeps m ρ c b hv.2).trans <| (W3_keeps m ρ c b h1).trans (W2_keeps m ρ c b hv.1)

theorem W4_arg (b : Ref sig .tc) (h0 : b ∉ hostOps0_W) (h1 : b ∉ hostOps1_W) (hv : b ≠ main_v21 ∧ b ≠ main_v38) :
    W4 m ρ c (Proc.devRef .tc b) = m ((c : Thread nD τ).loc b) :=
  (W4_of_W1 m ρ c b h1 hv).trans (W1_keeps m ρ c b h0)

theorem W5_arg (b : Ref sig .tc) (h0 : b ∉ hostOps0_W) (h1 : b ∉ hostOps1_W) (h2 : b ∉ hostOps2_W) (hv : b ≠ main_v21 ∧ b ≠ main_v38) :
    V5 m ρ c b = m ((c : Thread nD τ).loc b) :=
  (W5_keeps m ρ c b h2).trans (W4_arg m ρ c b h0 h1 hv)

theorem W5_of_W1 (b : Ref sig .tc) (h1 : b ∉ hostOps1_W) (h2 : b ∉ hostOps2_W) (hv : b ≠ main_v21 ∧ b ≠ main_v38) :
    W5 m ρ c (Proc.devRef .tc b) = W1 m ρ c (Proc.devRef .tc b) :=
  (W5_keeps m ρ c b h2).trans (W4_of_W1 m ρ c b h1 hv)

theorem srcNum_W4 (e : Fin 1600000) : (W4 m ρ c (Proc.devRef .tc main_v1) : S1600000.Idx → BitVec 32) (ix1 e)
    = (m ((c : Thread nD τ).loc main_arg1) : S2x1600000.Idx → BitVec 32) (ix2 0 e) :=
  (congrFun (W4_of_W1 m ρ c main_v1 (by decide) (by decide)) (ix1 e)).trans (Cert.KernelIdeal.HostValue.v1 (W0 m ρ c) e)

theorem dstNum_W4 (e : Fin 1600000) : (W4 m ρ c (Proc.devRef .tc main_v3) : S1600000.Idx → BitVec 32) (ix1 e)
    = (m ((c : Thread nD τ).loc main_arg1) : S2x1600000.Idx → BitVec 32) (ix2 1 e) :=
  (congrFun (W4_of_W1 m ρ c main_v3 (by decide) (by decide)) (ix1 e)).trans (Cert.KernelIdeal.HostValue.v3 (W0 m ρ c) e)

theorem graphNum_W5 (n : Fin 100000) : (W5 m ρ c (Proc.devRef .tc main_v4) : S100000x1.Idx → BitVec 32) (ix2 n 0)
    = (m ((c : Thread nD τ).loc main_arg2) : S100000.Idx → BitVec 32) (ix1 n) :=
  (congrFun (W5_of_W1 m ρ c main_v4 (by decide) (by decide) (by decide)) (ix2 n 0)).trans (Cert.KernelIdeal.HostValue.v4 (W0 m ρ c) n)

theorem head3 (g : Fin 512) :
    (W6 m ρ c (Proc.devRef .tc main_v57) : S512x1.Idx → EReal) (ix2 g 0)
      = Cert.Spec.lin (Cert.Spec.dense (Cert.Spec.pool (G := 512)
          (Cert.Spec.conv (Cert.Spec.cur2 (W4 m ρ c (Proc.devRef .tc main_v38) : S100000x64.Idx → EReal)) (fun e => Cert.Spec.srcRowOf ((m ((c : Thread nD τ).loc main_arg1) : S2x1600000.Idx → BitVec 32) (ix2 0 e))) (fun e => (Cert.KernelIdeal.HostValue.dstNorm ((m ((c : Thread nD τ).loc main_arg1) : S2x1600000.Idx → BitVec 32) (ix2 1 e))).toInt) (Cert.Spec.cur2 (m ((c : Thread nD τ).loc main_arg11) : S64x64.Idx → EReal)) (Cert.Spec.cur1 (m ((c : Thread nD τ).loc main_arg12) : S64.Idx → EReal)) (Cert.Spec.cur2 (m ((c : Thread nD τ).loc main_arg13) : S64x64.Idx → EReal)) (Cert.Spec.cur1 (m ((c : Thread nD τ).loc main_arg14) : S64.Idx → EReal)))
          (fun n => ((m ((c : Thread nD τ).loc main_arg2) : S100000.Idx → BitVec 32) (ix1 n)).toInt)) (Cert.Spec.cur2 (m ((c : Thread nD τ).loc main_arg15) : S64x64.Idx → EReal)) (Cert.Spec.cur1 (m ((c : Thread nD τ).loc main_arg16) : S64.Idx → EReal))) (Cert.Spec.cur2 (m ((c : Thread nD τ).loc main_arg17) : S64x1.Idx → EReal)) (Cert.Spec.cur1 (m ((c : Thread nD τ).loc main_arg18) : S1.Idx → EReal)) g 0 := by
  have hz : Cert.Spec.cur2 (V5 m ρ c main_v52 : S100000x64.Idx → EReal) = _ :=
    funext fun n => funext fun k => (Cert.KernelIdeal.HostValue.agg2 (W4 m ρ c) n k).trans
      (congrFun (congrFun (agg_congr _ (funext fun e => congrArg Cert.Spec.srcRowOf (srcNum_W4 m ρ c e))
        (funext fun e => congrArg (fun w => (Cert.KernelIdeal.HostValue.dstNorm w).toInt) (dstNum_W4 m ρ c e))) n) k)
  have hbatch : (fun n => ((V5 m ρ c main_v4 : S100000x1.Idx → BitVec 32) (ix2 n 0)).toInt) = _ :=
    funext fun n => congrArg BitVec.toInt (graphNum_W5 m ρ c n)
  have hb31 : (fun q => (V5 m ρ c main_v53 : S1x64.Idx → EReal) (ix2 0 q)) = _ :=
    funext fun q => (Cert.KernelIdeal.HostValue.v53 (W4 m ρ c) q).trans (congrFun (W4_arg m ρ c main_arg12 (by decide) (by decide) (by decide)) (ix1 q))
  have hb32 : (fun q => (V5 m ρ c main_v54 : S1x64.Idx → EReal) (ix2 0 q)) = _ :=
    funext fun q => (Cert.KernelIdeal.HostValue.v54 (W4 m ρ c) q).trans (congrFun (W4_arg m ρ c main_arg14 (by decide) (by decide) (by decide)) (ix1 q))
  have hl1b : (fun q => (V5 m ρ c main_v55 : S1x64.Idx → EReal) (ix2 0 q)) = _ :=
    funext fun q => (Cert.KernelIdeal.HostValue.v55 (W4 m ρ c) q).trans (congrFun (W4_arg m ρ c main_arg16 (by decide) (by decide) (by decide)) (ix1 q))
  have hl2b : (fun q => (V5 m ρ c main_v56 : S1x1.Idx → EReal) (ix2 0 q)) = (Cert.Spec.cur1 (m ((c : Thread nD τ).loc main_arg18) : S1.Idx → EReal)) :=
    funext fun q => by
      obtain rfl : q = 0 := Subsingleton.elim _ _
      exact (Cert.KernelIdeal.HostValue.v56 (W4 m ρ c)).trans (congrFun (W4_arg m ρ c main_arg18 (by decide) (by decide) (by decide)) (ix1 0))
  refine (congrFun (W6_main_v57 m ρ c) (ix2 g 0)).trans ((final2 (V5 m ρ) c g).trans ?_)
  show Cert.Spec.lin (Cert.Spec.dense (Cert.Spec.pool (G := 512)
      (Cert.Spec.dense (Cert.Spec.dense (Cert.Spec.cur2 (V5 m ρ c main_v52 : S100000x64.Idx → EReal))
          (Cert.Spec.cur2 (V5 m ρ c main_arg11 : S64x64.Idx → EReal)) (fun q => (V5 m ρ c main_v53 : S1x64.Idx → EReal) (ix2 0 q)))
        (Cert.Spec.cur2 (V5 m ρ c main_arg13 : S64x64.Idx → EReal)) (fun q => (V5 m ρ c main_v54 : S1x64.Idx → EReal) (ix2 0 q)))
      (fun n => ((V5 m ρ c main_v4 : S100000x1.Idx → BitVec 32) (ix2 n 0)).toInt))
      (Cert.Spec.cur2 (V5 m ρ c main_arg15 : S64x64.Idx → EReal)) (fun q => (V5 m ρ c main_v55 : S1x64.Idx → EReal) (ix2 0 q)))
    (Cert.Spec.cur2 (V5 m ρ c main_arg17 : S64x1.Idx → EReal)) (fun q => (V5 m ρ c main_v56 : S1x1.Idx → EReal) (ix2 0 q)) g 0 = _
  rw [hz, hbatch, W5_arg m ρ c main_arg11 (by decide) (by decide) (by decide) (by decide), W5_arg m ρ c main_arg13 (by decide) (by decide) (by decide) (by decide), W5_arg m ρ c main_arg15 (by decide) (by decide) (by decide) (by decide),
    W5_arg m ρ c main_arg17 (by decide) (by decide) (by decide) (by decide), hb31, hb32, hl1b, hl2b]
  rfl

theorem result_of_pre [hPre_finite_inputs : Cert.Pre_finite_inputs.Facts] (m : (ℓ : Loc nD τ sig) → Buf (Elt Ideal) ℓ)
    (h : Cert.Pre_KernelIdeal m) (ρ : Dev nD → PrngReg) (c : Dev nD) (g : Fin 512) :
    (Cert.KernelIdeal.Rg.W6 m ρ c (Proc.devRef .tc main_v57) : S512x1.Idx → EReal) (ix2 g 0)
      = Cert.Spec.net (Cert.Spec.cur2 (m ((c : Thread nD τ).loc main_arg0) : S100000x64.Idx → EReal))
          (fun e => Cert.Spec.srcRowOf ((m ((c : Thread nD τ).loc main_arg1) : S2x1600000.Idx → BitVec 32) (ix2 0 e)))
          (fun e => ((m ((c : Thread nD τ).loc main_arg1) : S2x1600000.Idx → BitVec 32) (ix2 1 e)).toInt)
          (fun n => ((m ((c : Thread nD τ).loc main_arg2) : S100000.Idx → BitVec 32) (ix1 n)).toInt)
          (Cert.Spec.cur2 (m ((c : Thread nD τ).loc main_arg3) : S64x64.Idx → EReal)) (Cert.Spec.cur1 (m ((c : Thread nD τ).loc main_arg4) : S64.Idx → EReal)) (Cert.Spec.cur2 (m ((c : Thread nD τ).loc main_arg5) : S64x64.Idx → EReal)) (Cert.Spec.cur1 (m ((c : Thread nD τ).loc main_arg6) : S64.Idx → EReal)) (Cert.Spec.cur2 (m ((c : Thread nD τ).loc main_arg7) : S64x64.Idx → EReal)) (Cert.Spec.cur1 (m ((c : Thread nD τ).loc main_arg8) : S64.Idx → EReal)) (Cert.Spec.cur2 (m ((c : Thread nD τ).loc main_arg9) : S64x64.Idx → EReal)) (Cert.Spec.cur1 (m ((c : Thread nD τ).loc main_arg10) : S64.Idx → EReal)) (Cert.Spec.cur2 (m ((c : Thread nD τ).loc main_arg11) : S64x64.Idx → EReal)) (Cert.Spec.cur1 (m ((c : Thread nD τ).loc main_arg12) : S64.Idx → EReal)) (Cert.Spec.cur2 (m ((c : Thread nD τ).loc main_arg13) : S64x64.Idx → EReal)) (Cert.Spec.cur1 (m ((c : Thread nD τ).loc main_arg14) : S64.Idx → EReal))
          (Cert.Spec.cur2 (m ((c : Thread nD τ).loc main_arg15) : S64x64.Idx → EReal)) (Cert.Spec.cur1 (m ((c : Thread nD τ).loc main_arg16) : S64.Idx → EReal)) (Cert.Spec.cur2 (m ((c : Thread nD τ).loc main_arg17) : S64x1.Idx → EReal)) (Cert.Spec.cur1 (m ((c : Thread nD τ).loc main_arg18) : S1.Idx → EReal)) g 0 := by
  rw [head3 m ρ c g,
    show Cert.Spec.cur2 (W4 m ρ c (Proc.devRef .tc main_v38) : S100000x64.Idx → EReal) = _ from funext fun n => funext fun k => layer2 m ρ c n k,
    show Cert.Spec.cur2 (W2 m ρ c (Proc.devRef .tc main_v21) : S100000x64.Idx → EReal) = _ from funext fun n => funext fun k => layer1 m ρ c n k,
    show (fun e => (Cert.KernelIdeal.HostValue.dstNorm ((m ((c : Thread nD τ).loc main_arg1) : S2x1600000.Idx → BitVec 32) (ix2 1 e))).toInt) = _ from
      funext fun e => congrArg BitVec.toInt (Cert.KernelIdeal.HostValue.dstNorm_of_nonneg _ (Cert.PreFacts.dst_nonneg m h c e))]
  rfl

end Cert.KernelIdeal.Val

end
-- ==== Proof.Ref.MatMul.lean ====
import Idealize.ShloMosaic.Lib.ValueIdx
import Idealize.ShloMosaic.PureOps.Ideal.Laws

noncomputable section

open scoped BigOperators

namespace Cert.RefValue

open Idealize.ShloMosaic Idealize.ShloMosaic.ValueIdx

abbrev matDims (N K C : Nat) (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

section
variable {N K C : Nat} (wf : DotDims.WF ⟨2, ![N, K]⟩ ⟨2, ![K, C]⟩ ⟨2, ![N, C]⟩ [1] [0] [0] [1] [] [])

theorem mat_lhs_row (j : (⟨2, ![N, C]⟩ : Shape).Idx) (q : (matDims N K C wf).contr.Idx) :
    ((matDims N K C wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

theorem mat_rhs_col (j : (⟨2, ![N, C]⟩ : Shape).Idx) (q : (matDims N K C wf).contr.Idx) :
    ((matDims N K C wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

theorem mat_apply (z : FVec Ideal ⟨2, ![N, K]⟩ .f32) (w : FVec Ideal ⟨2, ![K, C]⟩ .f32) (n : Fin N) (c : Fin C) :
    Host.dotGeneral (matDims N K C wf) none z w (ix2 n c) = ∑ k : Fin K, z (ix2 n k) * w (ix2 k c) := by
  simp only [Host.dotGeneral]
  rw [Ideal.dotGeneral_apply, ← Equiv.sum_comp (contrEquiv1 (matDims N K C wf) K rfl rfl).symm]
  refine Finset.sum_congr rfl fun k _ => ?_
  have hk := contrEquiv1_symm_val (matDims N K C wf) K rfl rfl k
  have el : (matDims N K C wf).lhsIdx (ix2 n c) ((contrEquiv1 (matDims N K C wf) K rfl rfl).symm k) = ix2 n k :=
    funext fun a => Fin.ext (by
      match a with
      | ⟨0, _⟩ => exact mat_lhs_row wf _ _
      | ⟨1, _⟩ => exact ((matDims N K C wf).lhsIdx_val_of_single rfl _ _).trans hk)
  have er : (matDims N K C wf).rhsIdx (ix2 n c) ((contrEquiv1 (matDims N K C wf) K rfl rfl).symm k) = ix2 k c :=
    funext fun a => Fin.ext (by
      match a with
      | ⟨0, _⟩ => exact ((matDims N K C wf).rhsIdx_val_of_single rfl _ _).trans hk
      | ⟨1, _⟩ => exact mat_rhs_col wf _ _)
  rw [el, er]

end

end Cert.RefValue

end
-- ==== Proof.Ref.Stages.lean ====
import Idealize.ShloMosaic.Lib.Pipeline.Value
import proofs.«413058_j7705171329584_2_alg».proof.Proof.Spec
import proofs.«413058_j7705171329584_2_alg».proof.Proof.LibRowTake
import proofs.«413058_j7705171329584_2_alg».proof.Proof.Ref.MatMul

noncomputable section

open scoped BigOperators

namespace Cert.RefValue

open Idealize.ShloMosaic Idealize.ShloMosaic.ValueIdx Idealize.ShloMosaic.RowTake

theorem zeros_apply {t : Shape} (hz : (⟨0, ![]⟩ : Shape).BroadcastsInDim t (![] : Fin 0 → Fin t.rank)) (i : t.Idx) :
    broadcastInDim t ![] hz (constant (F := Ideal) ⟨0, ![]⟩ .f32 0x00000000#32) i = 0 := by
  rw [broadcastInDim_apply _ hz _ i ix0 (fun a => a.elim0), constant_apply]
  exact Ideal.ofBits_zero_f32

theorem bias_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : FVec Ideal ⟨1, ![C]⟩ .f32) (n : Fin N) (c : Fin C) :
    broadcastInDim ⟨2, ![N, C]⟩ ![0, 1] h2 (broadcastInDim ⟨2, ![1, C]⟩ ![1] h1 b) (ix2 n c) = b (ix1 c) := by
  have hc : c.val = if C = 1 then 0 else c.val := by
    split
    · have := c.isLt; omega
    · rfl
  rw [broadcastInDim_apply _ h2 _ (ix2 n c) (ix2 0 c) (fun a => match a with
        | ⟨0, _⟩ => by show 0 = if (1 : Nat) = 1 then 0 else n.val; rw [if_pos rfl]
        | ⟨1, _⟩ => hc),
    broadcastInDim_apply _ h1 _ (ix2 0 c) (ix1 c) (fun a => match a with
        | ⟨0, _⟩ => hc)]

section Dense
variable {N K C : Nat} (wf : DotDims.WF ⟨2, ![N, K]⟩ ⟨2, ![K, C]⟩ ⟨2, ![N, C]⟩ [1] [0] [0] [1] [] [])
  (h1 : (⟨1, ![C]⟩ : Shape).BroadcastsInDim ⟨2, ![1, C]⟩ (![1] : Fin 1 → Fin 2))
  (h2 : (⟨2, ![1, C]⟩ : Shape).BroadcastsInDim ⟨2, ![N, C]⟩ (![0, 1] : Fin 2 → Fin 2))
  (hz : (⟨0, ![]⟩ : Shape).BroadcastsInDim ⟨2, ![N, C]⟩ (![] : Fin 0 → Fin 2))

theorem lin_apply (z : FVec Ideal ⟨2, ![N, K]⟩ .f32) (w : FVec Ideal ⟨2, ![K, C]⟩ .f32) (b : FVec Ideal ⟨1, ![C]⟩ .f32)
    (n : Fin N) (c : Fin C) :
    addf (Host.dotGeneral (matDims N K C wf) none z w)
        (broadcastInDim ⟨2, ![N, C]⟩ ![0, 1] h2 (broadcastInDim ⟨2, ![1, C]⟩ ![1] h1 b)) (ix2 n c)
      = Spec.lin (Spec.cur2 z) (Spec.cur2 w) (Spec.cur1 b) n c := by
  rw [addf_apply, mat_apply, bias_apply]
  rfl

theorem dense_apply (z : FVec Ideal ⟨2, ![N, K]⟩ .f32) (w : FVec Ideal ⟨2, ![K, C]⟩ .f32) (b : FVec Ideal ⟨1, ![C]⟩ .f32)
    (n : Fin N) (c : Fin C) :
    maximumf (addf (Host.dotGeneral (matDims N K C wf) none z w)
          (broadcastInDim ⟨2, ![N, C]⟩ ![0, 1] h2 (broadcastInDim ⟨2, ![1, C]⟩ ![1] h1 b)))
        (broadcastInDim ⟨2, ![N, C]⟩ ![] hz (constant ⟨0, ![]⟩ .f32 0x00000000#32)) (ix2 n c)
      = Spec.dense (Spec.cur2 z) (Spec.cur2 w) (Spec.cur1 b) n c := by
  rw [maximumf_apply, lin_apply, zeros_apply]
  rfl

end Dense

theorem agg_apply {N R C : Nat} (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (hz : (⟨0, ![]⟩ : Shape).BroadcastsInDim ⟨2, ![N, C]⟩ (![] : Fin 0 → Fin 2))
    (h : FVec Ideal ⟨2, ![N, C]⟩ .f32) (si di : IVec ⟨2, ![R, 1]⟩ 32) (n : Fin N) (c : Fin C) :
    addf h (Host.scatterAdd (rowScatterDims N R C wfs)
        (broadcastInDim ⟨2, ![N, C]⟩ ![] hz (constant ⟨0, ![]⟩ .f32 0x00000000#32)) di
        (Host.gather (rowGatherDims N R C wfg) h si)) (ix2 n c)
      = Spec.agg (Spec.cur2 h) (fun e => ⟨min (si (ix2 e 0)).toInt.toNat (N - 1), by omega⟩)
          (fun e => (di (ix2 e 0)).toInt) n c := by
  rw [addf_apply]
  show h (ix2 n c) + Ideal.hostScatterAdd (rowScatterDims N R C wfs) _ di _ (ix2 n c) = _
  rw [rowScatterAdd_apply, zeros_apply, zero_add]
  refine congrArg (h (ix2 n c) + ·) (Finset.sum_congr rfl fun e _ => ?_)
  rw [rowGather_apply hN]
  rfl

theorem pool_apply {G N C : Nat}
    (wfs : ScatterDims.WF ⟨2, ![G, C]⟩ ⟨2, ![N, 1]⟩ ⟨2, ![N, C]⟩ [1] [0] [0] 1)
    (hz : (⟨0, ![]⟩ : Shape).BroadcastsInDim ⟨2, ![G, C]⟩ (![] : Fin 0 → Fin 2))
    (h : FVec Ideal ⟨2, ![N, C]⟩ .f32) (bi : IVec ⟨2, ![N, 1]⟩ 32) (g : Fin G) (c : Fin C) :
    Host.scatterAdd (rowScatterDims G N C wfs)
        (broadcastInDim ⟨2, ![G, C]⟩ ![] hz (constant ⟨0, ![]⟩ .f32 0x00000000#32)) bi h (ix2 g c)
      = Spec.pool (Spec.cur2 h) (fun n => (bi (ix2 n 0)).toInt) g c := by
  show Ideal.hostScatterAdd (rowScatterDims G N C wfs) _ bi h (ix2 g c) = _
  rw [rowScatterAdd_apply, zeros_apply, zero_add]
  rfl

end Cert.RefValue

end
-- ==== Proof.Ref.Rows.lean ====
import proofs.«413058_j7705171329584_2_alg».proof.Proof.Gen.ReferenceIdeal.Read
import proofs.«413058_j7705171329584_2_alg».proof.Proof.Spec

noncomputable section

namespace Cert.RefValue

open Cert.ReferenceIdeal Cert.ReferenceIdeal.Gen Cert.ReferenceIdeal.Read Idealize.ShloMosaic Idealize.ShloMosaic.ValueIdx

variable {F : FTy → Type} [FloatOps F]

theorem srcWord_apply (x1 : (⟨S2x1600000, .i32⟩ : BufTy).Contents (Elt F)) (e : Fin 1600000) :
    val_main_v1 (F := F) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

theorem dstWord_apply (x1 : (⟨S2x1600000, .i32⟩ : BufTy).Contents (Elt F)) (e : Fin 1600000) :
    val_main_v3 (F := F) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

theorem slt_zero (w : BitVec 32) : w.slt 0#32 = decide (w.toInt < 0) := rfl

theorem wrap_select (w : BitVec 32) :
    Scalar.select (IntOp.cmpi .slt w 0#32) (IntOp.addi w 100000#32) w = if w.toInt < 0 then w + 100000#32 else w := by
  show Scalar.select (BitVec.ofBool (w.slt 0#32)) (w + 100000#32) w = _
  rw [slt_zero]
  by_cases hw : w.toInt < 0
  · rw [decide_eq_true hw, if_pos hw]; exact select_one _ _
  · rw [decide_eq_false hw, if_neg hw]; exact select_zero _ _

theorem srcCol_apply (x1 : (⟨S2x1600000, .i32⟩ : BufTy).Contents (Elt F)) (e : Fin 1600000) :
    val_main_v9 (F := F) x1 (ix2 e 0)
      = if (x1 (ix2 0 e)).toInt < 0 then x1 (ix2 0 e) + 100000#32 else x1 (ix2 0 e) := by
  rw [val_main_v9_apply, show idx_main_v9 (ix2 e (0 : Fin 1)) = ix1 e from funext fun a => match a with | ⟨0, _⟩ => rfl,
    val_main_v8_apply, val_main_v5_apply, val_main_v7_apply, val_main_v4_apply, val_main_v6_apply, val_main_c_apply,
    val_main_c_0_apply, srcWord_apply]
  exact wrap_select _

theorem srcRow_eq (x1 : (⟨S2x1600000, .i32⟩ : BufTy).Contents (Elt F)) (e : Fin 1600000)
    (hlt : min (val_main_v9 (F := F) x1 (ix2 e 0)).toInt.toNat (100000 - 1) < 100000) :
    (⟨min (val_main_v9 (F := F) x1 (ix2 e 0)).toInt.toNat (100000 - 1), hlt⟩ : Fin 100000) = Spec.srcRowOf (x1 (ix2 0 e)) := by
  refine Fin.ext ?_
  show min (val_main_v9 (F := F) x1 (ix2 e 0)).toInt.toNat (100000 - 1) = _
  rw [srcCol_apply]
  rfl

theorem dstCol_apply (x1 : (⟨S2x1600000, .i32⟩ : BufTy).Contents (Elt F)) (e : Fin 1600000) :
    val_main_v12 (F := F) x1 (ix2 e 0) = x1 (ix2 1 e) := by
  rw [val_main_v12_apply, show idx_main_v12 (ix2 e (0 : Fin 1)) = ix1 e from funext fun a => match a with | ⟨0, _⟩ => rfl,
    dstWord_apply]

theorem graphCol_apply (x2 : (⟨S100000, .i32⟩ : BufTy).Contents (Elt F)) (n : Fin 100000) :
    val_main_v68 (F := F) x2 (ix2 n 0) = x2 (ix1 n) := by
  rw [val_main_v68_apply]
  exact congrArg x2 (funext fun a => match a with | ⟨0, _⟩ => rfl)

end Cert.RefValue

end
-- ==== Proof.Ref.Net.lean ====
import proofs.«413058_j7705171329584_2_alg».proof.Proof.Ref.Stages
import proofs.«413058_j7705171329584_2_alg».proof.Proof.Ref.Rows

noncomputable section

namespace Cert.RefValue

open Cert.ReferenceIdeal Cert.ReferenceIdeal.Gen Cert.ReferenceIdeal.Read Idealize.ShloMosaic Idealize.ShloMosaic.ValueIdx

abbrev srcRows (x1 : IVec S2x1600000 32) : Fin 1600000 → Fin 100000 := fun e => Spec.srcRowOf (x1 (ix2 0 e))
abbrev dstNums (x1 : IVec S2x1600000 32) : Fin 1600000 → Int := fun e => (x1 (ix2 1 e)).toInt
abbrev graphNums (x2 : IVec S100000 32) : Fin 100000 → Int := fun n => (x2 (ix1 n)).toInt

theorem aggStage (h : FVec Ideal S100000x64 .f32) (x1 : IVec S2x1600000 32) :
    Spec.cur2 (addf h (Host.scatterAdd scatter_S100000x64_S1600000x1_S1600000x64_1_0_0_1 (broadcastInDim S100000x64 ![] bcast_S_S100000x64 (constant S_ .f32 0x00000000#32)) (val_main_v12 (F := Ideal) x1)
        (Host.gather gather_S100000x64_S1600000x1_S1600000x64_1_0_n_n_0_1_164 h (val_main_v9 (F := Ideal) x1))))
      = Spec.agg (Spec.cur2 h) (srcRows x1) (dstNums x1) := by
  funext n c
  refine (agg_apply (N := 100000) (R := 1600000) (C := 64) (by decide) gather_S100000x64_S1600000x1_S1600000x64_1_0_n_n_0_1_164_wf scatter_S100000x64_S1600000x1_S1600000x64_1_0_0_1_wf bcast_S_S100000x64
    h (val_main_v9 (F := Ideal) x1) (val_main_v12 (F := Ideal) x1) n c).trans ?_
  have hs : (fun e : Fin 1600000 => (⟨min (val_main_v9 (F := Ideal) x1 (ix2 e 0)).toInt.toNat (100000 - 1), by omega⟩ : Fin 100000))
      = srcRows x1 := funext fun e => srcRow_eq x1 e _
  have hd : (fun e : Fin 1600000 => (val_main_v12 (F := Ideal) x1 (ix2 e 0)).toInt) = dstNums x1 :=
    funext fun e => by rw [dstCol_apply]
  rw [hs, hd]

theorem denseStage (z : FVec Ideal S100000x64 .f32) (w : FVec Ideal S64x64 .f32) (b : FVec Ideal S64 .f32) :
    Spec.cur2 (maximumf (addf (Host.dotGeneral dot_S100000x64_S64x64_S100000x64_1_0_0_1_n_n none z w) (broadcastInDim S100000x64 ![0, 1] bcast_S1x64_S100000x64_0_1 (broadcastInDim S1x64 ![1] bcast_S64_S1x64_1 b))) (broadcastInDim S100000x64 ![] bcast_S_S100000x64 (constant S_ .f32 0x00000000#32)))
      = Spec.dense (Spec.cur2 z) (Spec.cur2 w) (Spec.cur1 b) :=
  funext fun n => funext fun c => dense_apply dot_S100000x64_S64x64_S100000x64_1_0_0_1_n_n_wf bcast_S64_S1x64_1 bcast_S1x64_S100000x64_0_1 bcast_S_S100000x64 z w b n c

theorem roundStage (h : FVec Ideal S100000x64 .f32) (x1 : IVec S2x1600000 32)
    (w1 : FVec Ideal S64x64 .f32) (b1 : FVec Ideal S64 .f32) (w2 : FVec Ideal S64x64 .f32) (b2 : FVec Ideal S64 .f32) :
    Spec.cur2 (maximumf (addf (Host.dotGeneral dot_S100000x64_S64x64_S100000x64_1_0_0_1_n_n none
        (maximumf (addf (Host.dotGeneral dot_S100000x64_S64x64_S100000x64_1_0_0_1_n_n none
            (addf h (Host.scatterAdd scatter_S100000x64_S1600000x1_S1600000x64_1_0_0_1 (broadcastInDim S100000x64 ![] bcast_S_S100000x64 (constant S_ .f32 0x00000000#32)) (val_main_v12 (F := Ideal) x1)
              (Host.gather gather_S100000x64_S1600000x1_S1600000x64_1_0_n_n_0_1_164 h (val_main_v9 (F := Ideal) x1))))
            w1) (broadcastInDim S100000x64 ![0, 1] bcast_S1x64_S100000x64_0_1 (broadcastInDim S1x64 ![1] bcast_S64_S1x64_1 b1))) (broadcastInDim S100000x64 ![] bcast_S_S100000x64 (constant S_ .f32 0x00000000#32)))
        w2) (broadcastInDim S100000x64 ![0, 1] bcast_S1x64_S100000x64_0_1 (broadcastInDim S1x64 ![1] bcast_S64_S1x64_1 b2))) (broadcastInDim S100000x64 ![] bcast_S_S100000x64 (constant S_ .f32 0x00000000#32)))
      = Spec.conv (Spec.cur2 h) (srcRows x1) (dstNums x1) (Spec.cur2 w1) (Spec.cur1 b1) (Spec.cur2 w2) (Spec.cur1 b2) := by
  rw [denseStage, denseStage, aggStage]
  rfl

section Rounds
variable (x0 : FVec Ideal S100000x64 .f32) (x1 : IVec S2x1600000 32) (x2 : IVec S100000 32) (x3 : FVec Ideal S64x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32) (x11 : FVec Ideal S64x64 .f32) (x12 : FVec Ideal S64 .f32) (x13 : FVec Ideal S64x64 .f32) (x14 : FVec Ideal S64 .f32) (x15 : FVec Ideal S64x64 .f32) (x16 : FVec Ideal S64 .f32) (x17 : FVec Ideal S64x1 .f32) (x18 : FVec Ideal S1 .f32)

theorem round1 : Spec.cur2 (val_main_v24 (F := Ideal) x0 x1 x3 x4 x5 x6)
    = Spec.conv (Spec.cur2 x0) (srcRows x1) (dstNums x1) (Spec.cur2 x3) (Spec.cur1 x4) (Spec.cur2 x5) (Spec.cur1 x6) :=
  roundStage x0 x1 x3 x4 x5 x6

theorem round2 : Spec.cur2 (val_main_v45 (F := Ideal) x0 x1 x3 x4 x5 x6 x7 x8 x9 x10)
    = Spec.conv (Spec.cur2 (val_main_v24 (F := Ideal) x0 x1 x3 x4 x5 x6)) (srcRows x1) (dstNums x1) (Spec.cur2 x7) (Spec.cur1 x8) (Spec.cur2 x9) (Spec.cur1 x10) :=
  roundStage (val_main_v24 (F := Ideal) x0 x1 x3 x4 x5 x6) x1 x7 x8 x9 x10

theorem round3 : Spec.cur2 (val_main_v66 (F := Ideal) x0 x1 x3 x4 x5 x6 x7 x8 x9 x10 x11 x12 x13 x14)
    = Spec.conv (Spec.cur2 (val_main_v45 (F := Ideal) x0 x1 x3 x4 x5 x6 x7 x8 x9 x10)) (srcRows x1) (dstNums x1) (Spec.cur2 x11) (Spec.cur1 x12) (Spec.cur2 x13) (Spec.cur1 x14) :=
  roundStage (val_main_v45 (F := Ideal) x0 x1 x3 x4 x5 x6 x7 x8 x9 x10) x1 x11 x12 x13 x14

theorem pooled : Spec.cur2 (val_main_v69 (F := Ideal) x0 x1 x2 x3 x4 x5 x6 x7 x8 x9 x10 x11 x12 x13 x14)
    = Spec.pool (Spec.cur2 (val_main_v66 (F := Ideal) x0 x1 x3 x4 x5 x6 x7 x8 x9 x10 x11 x12 x13 x14)) (graphNums x2) := by
  funext g c
  refine (pool_apply (G := 512) (N := 100000) (C := 64) scatter_S512x64_S100000x1_S100000x64_1_0_0_1_wf bcast_S_S512x64
    (val_main_v66 (F := Ideal) x0 x1 x3 x4 x5 x6 x7 x8 x9 x10 x11 x12 x13 x14) (val_main_v68 (F := Ideal) x2) g c).trans ?_
  have hb : (fun n : Fin 100000 => (val_main_v68 (F := Ideal) x2 (ix2 n 0)).toInt) = graphNums x2 :=
    funext fun n => by rw [graphCol_apply]
  rw [hb]

theorem net_apply (g : Fin 512) :
    val_main_v78 (F := Ideal) x0 x1 x2 x3 x4 x5 x6 x7 x8 x9 x10 x11 x12 x13 x14 x15 x16 x17 x18 (ix2 g 0)
      = Spec.net (Spec.cur2 x0) (srcRows x1) (dstNums x1) (graphNums x2) (Spec.cur2 x3) (Spec.cur1 x4) (Spec.cur2 x5) (Spec.cur1 x6)
          (Spec.cur2 x7) (Spec.cur1 x8) (Spec.cur2 x9) (Spec.cur1 x10) (Spec.cur2 x11) (Spec.cur1 x12) (Spec.cur2 x13) (Spec.cur1 x14)
          (Spec.cur2 x15) (Spec.cur1 x16) (Spec.cur2 x17) (Spec.cur1 x18) g 0 := by

  refine (lin_apply dot_S512x64_S64x1_S512x1_1_0_0_1_n_n_wf bcast_S1_S1x1_1 bcast_S1x1_S512x1_0_1
    (val_main_v74 (F := Ideal) x0 x1 x2 x3 x4 x5 x6 x7 x8 x9 x10 x11 x12 x13 x14 x15 x16) x17 x18 g 0).trans ?_
  have h74 : Spec.cur2 (val_main_v74 (F := Ideal) x0 x1 x2 x3 x4 x5 x6 x7 x8 x9 x10 x11 x12 x13 x14 x15 x16)
      = Spec.dense (Spec.cur2 (val_main_v69 (F := Ideal) x0 x1 x2 x3 x4 x5 x6 x7 x8 x9 x10 x11 x12 x13 x14)) (Spec.cur2 x15) (Spec.cur1 x16) :=
    funext fun p => funext fun q => dense_apply dot_S512x64_S64x64_S512x64_1_0_0_1_n_n_wf bcast_S64_S1x64_1 bcast_S1x64_S512x64_0_1
      bcast_S_S512x64 (val_main_v69 (F := Ideal) x0 x1 x2 x3 x4 x5 x6 x7 x8 x9 x10 x11 x12 x13 x14) x15 x16 p q
  rw [h74, pooled, round3, round2, round1]
  rfl

end Rounds

end Cert.RefValue

end
-- ==== Proof.Ref.lean ====
import proofs.«413058_j7705171329584_2_alg».proof.Defs
import proofs.«413058_j7705171329584_2_alg».proof.Proof.Gen.ReferenceIdeal.Run
import proofs.«413058_j7705171329584_2_alg».proof.Proof.Gen.ReferenceIdeal.Read
import proofs.«413058_j7705171329584_2_alg».proof.Proof.Spec
import proofs.«413058_j7705171329584_2_alg».proof.Proof.Ref.Net

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

theorem result_apply (m' : (ℓ : Loc nD τ sig) → Buf (Elt Ideal) ℓ) (c : Dev nD) (g : Fin 512) :
    (Cert.ReferenceIdeal.Value.res_main_v78 m' c : S512x1.Idx → EReal) (ix2 g 0)
      = Spec.net (Spec.cur2 ((m' ((c.tc : Thread nD τ).loc main_arg0)) : FVec Ideal S100000x64 .f32))
          (fun e => Spec.srcRowOf (((m' ((c.tc : Thread nD τ).loc main_arg1)) : S2x1600000.Idx → BitVec 32) (ix2 0 e)))
          (fun e => (((m' ((c.tc : Thread nD τ).loc main_arg1)) : S2x1600000.Idx → BitVec 32) (ix2 1 e)).toInt)
          (fun n => (((m' ((c.tc : Thread nD τ).loc main_arg2)) : S100000.Idx → BitVec 32) (ix1 n)).toInt)
          (Spec.cur2 ((m' ((c.tc : Thread nD τ).loc main_arg3)) : FVec Ideal S64x64 .f32))
          (Spec.cur1 ((m' ((c.tc : Thread nD τ).loc main_arg4)) : FVec Ideal S64 .f32))
          (Spec.cur2 ((m' ((c.tc : Thread nD τ).loc main_arg5)) : FVec Ideal S64x64 .f32))
          (Spec.cur1 ((m' ((c.tc : Thread nD τ).loc main_arg6)) : FVec Ideal S64 .f32))
          (Spec.cur2 ((m' ((c.tc : Thread nD τ).loc main_arg7)) : FVec Ideal S64x64 .f32))
          (Spec.cur1 ((m' ((c.tc : Thread nD τ).loc main_arg8)) : FVec Ideal S64 .f32))
          (Spec.cur2 ((m' ((c.tc : Thread nD τ).loc main_arg9)) : FVec Ideal S64x64 .f32))
          (Spec.cur1 ((m' ((c.tc : Thread nD τ).loc main_arg10)) : FVec Ideal S64 .f32))
          (Spec.cur2 ((m' ((c.tc : Thread nD τ).loc main_arg11)) : FVec Ideal S64x64 .f32))
          (Spec.cur1 ((m' ((c.tc : Thread nD τ).loc main_arg12)) : FVec Ideal S64 .f32))
          (Spec.cur2 ((m' ((c.tc : Thread nD τ).loc main_arg13)) : FVec Ideal S64x64 .f32))
          (Spec.cur1 ((m' ((c.tc : Thread nD τ).loc main_arg14)) : FVec Ideal S64 .f32))
          (Spec.cur2 ((m' ((c.tc : Thread nD τ).loc main_arg15)) : FVec Ideal S64x64 .f32))
          (Spec.cur1 ((m' ((c.tc : Thread nD τ).loc main_arg16)) : FVec Ideal S64 .f32))
          (Spec.cur2 ((m' ((c.tc : Thread nD τ).loc main_arg17)) : FVec Ideal S64x1 .f32))
          (Spec.cur1 ((m' ((c.tc : Thread nD τ).loc main_arg18)) : FVec Ideal S1 .f32))
          g 0 := by
  rw [Cert.ReferenceIdeal.Read.val_main_v78_eq]
  exact net_apply (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) g

end Cert.RefValue

end
-- ==== Proof.lean ====
import proofs.«413058_j7705171329584_2_alg».proof.Defs
import proofs.«413058_j7705171329584_2_alg».proof.Proof.Gen.Kernel
import proofs.«413058_j7705171329584_2_alg».proof.Proof.Gen.KernelIdeal
import proofs.«413058_j7705171329584_2_alg».proof.Proof.Gen.ReferenceIdeal
import proofs.«413058_j7705171329584_2_alg».proof.Proof.Gen.Pre_finite_inputs
import proofs.«413058_j7705171329584_2_alg».proof.Proof.K.Frame
import proofs.«413058_j7705171329584_2_alg».proof.Proof.KI.Frame
import proofs.«413058_j7705171329584_2_alg».proof.Proof.KI.Spine
import proofs.«413058_j7705171329584_2_alg».proof.Proof.Ref
import Idealize.ShloMosaic.Adequacy
import Idealize.ShloMosaic.Init

noncomputable section

namespace Cert.Proof

open Idealize.ShloMosaic Idealize.ShloMosaic.ValueIdx Idealize.SL.Sem

namespace Parts

theorem frame_k : Cert.frame_Kernel := fun m ρ _ =>
  (θ_run Cert.Kernel.defs _ _).mono (fun _ h c => (h c).2) (Cert.Kernel.Rg.run_result m ρ)
theorem frame_ki : Cert.frame_KernelIdeal := fun m ρ _ =>
  (θ_run Cert.KernelIdeal.defs _ _).mono (fun _ h c => (h c).2) (Cert.KernelIdeal.Rg.run_result m ρ)
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are the specification's network, of argument arrays that agree.
theorem algebraic : Cert.algebraic_KernelIdeal_ReferenceIdeal := by
  intro m ρ m' ρ' hpre hagree
  refine ⟨fun c => Cert.KernelIdeal.Rg.W6 m ρ c (Proc.devRef .tc Cert.KernelIdeal.main_v57),
    Cert.KernelIdeal.Rg.run_result m ρ, ?_⟩
  refine (θ_run Cert.ReferenceIdeal.defs _ _).mono (fun r h c => ⟨(h c).1.trans ?_, (h c).2⟩) (Cert.ReferenceIdeal.Value.run (F := Ideal) m' ρ')
  funext i
  obtain ⟨g, q, rfl⟩ : ∃ (g : Fin 512) (q : Fin 1), i = ix2 g q := ⟨i 0, i 1, eq_ix2 i⟩
  obtain rfl : q = 0 := Subsingleton.elim _ _
  obtain ⟨h0, h1, h2, h3, h4, h5, h6, h7, h8, h9, h10, h11, h12, h13, h14, h15, h16, h17, h18⟩ := hagree c
  refine Eq.trans ?_ (Cert.KernelIdeal.Val.result_of_pre m hpre ρ c g).symm
  rw [Cert.RefValue.result_apply m' c g, h0, h1, h2, h3, h4, h5, h6, h7, h8, h9, h10, h11, h12, h13, h14, h15, h16, h17, h18]

end Parts

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, Parts.preserves, Parts.algebraic⟩

end Cert.Proof

end
